-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v154)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S128x2 .f32) (main_arg8 : FVec F S2 .f32) (main_v33 : IVec S_ 1) : IVec S_ 1 :=
  let main_v34 : FVec F S128x2 .f32 := Host.absf main_arg7
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S3x128 .f32) (main_arg5 : FVec F S128x128 .f32) (main_arg6 : FVec F S128 .f32) (main_arg7 : FVec F S128x2 .f32) (main_arg8 : FVec F S2 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S3x128x128 .f32) (main_arg2 : FVec F S3x128 .f32) (main_arg3 : FVec F S3x128 .f32) (main_arg4 : FVec F S3x128 .f32) (main_arg5 : FVec F S128x128 .f32) (main_arg6 : FVec F S128 .f32) (main_arg7 : FVec F S128x2 .f32) (main_arg8 : FVec F S2 .f32) (main_arg9 : IVec S2x800000 32) (main_arg10 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg3
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128x128 : Shape := ⟨3, ![1, 128, 128]⟩
abbrev S5000x128 : Shape := ⟨2, ![5000, 128]⟩
abbrev S800000x128 : Shape := ⟨2, ![800000, 128]⟩
abbrev S1x128 : Shape := ⟨2, ![1, 128]⟩
abbrev S5000x1 : Shape := ⟨2, ![5000, 1]⟩
abbrev S128x1 : Shape := ⟨2, ![128, 1]⟩
abbrev S1x2 : Shape := ⟨2, ![1, 2]⟩

abbrev nBuf : Space → Nat
  | .hbm => 200
  | .vmem => 83
  | .smem => 0
  | _ => 0

abbrev hbmTy0_0 (i : Nat) : BufTy := match i % 128 with
  | 0 => ⟨S50000x128, .f32⟩
  | 1 => ⟨S3x128x128, .f32⟩
  | 2 => ⟨S3x128, .f32⟩
  | 3 => ⟨S3x128, .f32⟩
  | 4 => ⟨S3x128, .f32⟩
  | 5 => ⟨S128x128, .f32⟩
  | 6 => ⟨S128, .f32⟩
  | 7 => ⟨S128x2, .f32⟩
  | 8 => ⟨S2, .f32⟩
  | 9 => ⟨S2x800000, .i32⟩
  | 10 => ⟨S50000, .i32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S50000, .f32⟩
  | 47 => ⟨S50000x1, .f32⟩
  | 48 => ⟨S1x128x128, .f32⟩
  | 49 => ⟨S128x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S800000x1, .f32⟩
  | 61 => ⟨S800000x128, .f32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S1x128, .f32⟩
  | 68 => ⟨S128, .f32⟩
  | 69 => ⟨S1x128, .f32⟩
  | 70 => ⟨S50000x128, .f32⟩
  | 71 => ⟨S1x128, .f32⟩
  | 72 => ⟨S1x128, .f32⟩
  | 73 => ⟨S_, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S1x128, .f32⟩
  | 81 => ⟨S_, .f32⟩
  | 82 => ⟨S1x128, .f32⟩
  | 83 => ⟨S1x128, .f32⟩
  | 84 => ⟨S1x128, .f32⟩
  | 85 => ⟨S1x128, .f32⟩
  | 86 => ⟨S128, .f32⟩
  | 87 => ⟨S1x128, .f32⟩
  | 88 => ⟨S1x128, .f32⟩
  | 89 => ⟨S128, .f32⟩
  | 90 => ⟨S1x128, .f32⟩
  | 91 => ⟨S50000x128, .f32⟩
  | 92 => ⟨S1x128x128, .f32⟩
  | 93 => ⟨S128x128, .f32⟩
  | 94 => ⟨S50000x128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S800000x1, .f32⟩
  | 105 => ⟨S800000x128, .f32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S1x128, .f32⟩
  | 112 => ⟨S128, .f32⟩
  | 113 => ⟨S1x128, .f32⟩
  | 114 => ⟨S50000x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S_, .f32⟩
  | 121 => ⟨S1x128, .f32⟩
  | 122 => ⟨S1x128, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S50000x128, .f32⟩

abbrev hbmTy0_1 (i : Nat) : BufTy := match i % 128 with
  | 0 => ⟨S1x128, .f32⟩
  | 1 => ⟨S1x128, .f32⟩
  | 2 => ⟨S128, .f32⟩
  | 3 => ⟨S1x128, .f32⟩
  | 4 => ⟨S1x128, .f32⟩
  | 5 => ⟨S128, .f32⟩
  | 6 => ⟨S1x128, .f32⟩
  | 7 => ⟨S50000x128, .f32⟩
  | 8 => ⟨S1x128x128, .f32⟩
  | 9 => ⟨S128x128, .f32⟩
  | 10 => ⟨S50000x128, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S800000x1, .f32⟩
  | 21 => ⟨S800000x128, .f32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S1x128, .f32⟩
  | 28 => ⟨S128, .f32⟩
  | 29 => ⟨S1x128, .f32⟩
  | 30 => ⟨S50000x128, .f32⟩
  | 31 => ⟨S1x128, .f32⟩
  | 32 => ⟨S1x128, .f32⟩
  | 33 => ⟨S_, .f32⟩
  | 34 => ⟨S1x128, .f32⟩
  | 35 => ⟨S1x128, .f32⟩
  | 36 => ⟨S_, .f32⟩
  | 37 => ⟨S1x128, .f32⟩
  | 38 => ⟨S1x128, .f32⟩
  | 39 => ⟨S1x128, .f32⟩
  | 40 => ⟨S1x128, .f32⟩
  | 41 => ⟨S_, .f32⟩
  | 42 => ⟨S1x128, .f32⟩
  | 43 => ⟨S1x128, .f32⟩
  | 44 => ⟨S1x128, .f32⟩
  | 45 => ⟨S1x128, .f32⟩
  | 46 => ⟨S128, .f32⟩
  | 47 => ⟨S1x128, .f32⟩
  | 48 => ⟨S1x128, .f32⟩
  | 49 => ⟨S128, .f32⟩
  | 50 => ⟨S1x128, .f32⟩
  | 51 => ⟨S50000x128, .f32⟩
  | 52 => ⟨S50000x1, .i32⟩
  | 53 => ⟨S128, .i32⟩
  | 54 => ⟨S1x128, .i32⟩
  | 55 => ⟨S50000x128, .i32⟩
  | 56 => ⟨S50000x128, .i32⟩
  | 57 => ⟨S50000x128, .i1⟩
  | 58 => ⟨S50000x128, .bf16⟩
  | 59 => ⟨S50000x128, .f32⟩
  | 60 => ⟨S_, .f32⟩
  | 61 => ⟨S128, .f32⟩
  | 62 => ⟨S128x128, .f32⟩
  | 63 => ⟨S_, .f32⟩
  | 64 => ⟨S128, .f32⟩
  | 65 => ⟨S128, .f32⟩
  | 66 => ⟨S128x1, .f32⟩
  | 67 => ⟨S128x128, .f32⟩
  | 68 => ⟨S128x128, .f32⟩
  | 69 => ⟨S1x128, .f32⟩
  | 70 => ⟨S1x2, .f32⟩
  | 71 => ⟨S128x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x1, .f32⟩
  | .local _ .vmem, ⟨34, _⟩ => ⟨S5000x1, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x1, .f32⟩
  | .local _ .vmem, ⟨58, _⟩ => ⟨S5000x1, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | .local _ .vmem, ⟨62, _⟩ => ⟨S1x128, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S5000x128, .bf16⟩
  | .local _ .vmem, ⟨73, _⟩ => ⟨S5000x128, .bf16⟩
  | .local _ .vmem, ⟨74, _⟩ => ⟨S5000x128, .f32⟩
  | .local _ .vmem, ⟨75, _⟩ => ⟨S5000x128, .f32⟩
  | .local _ .vmem, ⟨76, _⟩ => ⟨S128x128, .f32⟩
  | .local _ .vmem, ⟨77, _⟩ => ⟨S128x128, .f32⟩
  | .local _ .vmem, ⟨78, _⟩ => ⟨S128x128, .f32⟩
  | .local _ .vmem, ⟨79, _⟩ => ⟨S1x128, .f32⟩
  | .local _ .vmem, ⟨80, _⟩ => ⟨S128x2, .f32⟩
  | .local _ .vmem, ⟨81, _⟩ => ⟨S1x2, .f32⟩
  | .local _ .vmem, ⟨82, _⟩ => ⟨S128x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | _, _ => false

abbrev semScoped : Fin 0 → Bool
  | ⟨_, h⟩ => absurd h (Nat.not_lt_zero _)

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  ofTc nBuf bufTy 0 83 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48_0 : Ref sig .tc := ⟨.hbm, 70, rfl⟩
abbrev main_v48_1 : Ref sig .tc := ⟨.hbm, 71, rfl⟩
abbrev main_v48_2 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_12 : Ref sig .tc := ⟨.hbm, 95, rfl⟩
abbrev main_v68 : Ref sig .tc := ⟨.hbm, 96, rfl⟩
abbrev main_v69 : Ref sig .tc := ⟨.hbm, 97, rfl⟩
abbrev main_c_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84_0 : Ref sig .tc := ⟨.hbm, 114, rfl⟩
abbrev main_v84_1 : Ref sig .tc := ⟨.hbm, 115, rfl⟩
abbrev main_v84_2 : Ref sig .tc := ⟨.hbm, 116, rfl⟩
abbrev main_cst_15 : Ref sig .tc := ⟨.hbm, 117, rfl⟩
abbrev main_v85 : Ref sig .tc := ⟨.hbm, 118, rfl⟩
abbrev main_v86 : Ref sig .tc := ⟨.hbm, 119, rfl⟩
abbrev main_cst_16 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_17 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_18 : Ref sig .tc := ⟨.hbm, 139, rfl⟩
abbrev main_v104 : Ref sig .tc := ⟨.hbm, 140, rfl⟩
abbrev main_v105 : Ref sig .tc := ⟨.hbm, 141, rfl⟩
abbrev main_c_19 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_20 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120_0 : Ref sig .tc := ⟨.hbm, 158, rfl⟩
abbrev main_v120_1 : Ref sig .tc := ⟨.hbm, 159, rfl⟩
abbrev main_v120_2 : Ref sig .tc := ⟨.hbm, 160, rfl⟩
abbrev main_cst_21 : Ref sig .tc := ⟨.hbm, 161, rfl⟩
abbrev main_v121 : Ref sig .tc := ⟨.hbm, 162, rfl⟩
abbrev main_v122 : Ref sig .tc := ⟨.hbm, 163, rfl⟩
abbrev main_cst_22 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_23 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_cst_24 : Ref sig .tc := ⟨.hbm, 188, rfl⟩
abbrev main_v145 : Ref sig .tc := ⟨.hbm, 189, rfl⟩
abbrev main_v146 : Ref sig .tc := ⟨.hbm, 190, rfl⟩
abbrev main_cst_25 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg6_0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg4_1 : Ref sig .tc := ⟨.vmem, 61, rfl⟩
abbrev cc7_stg5_0 : Ref sig .tc := ⟨.vmem, 62, rfl⟩
abbrev cc7_stg6_0 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg5_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg1_1 : Ref sig .tc := ⟨.vmem, 75, rfl⟩
abbrev cc9_stg2_0 : Ref sig .tc := ⟨.vmem, 76, rfl⟩
abbrev cc10_stg0_0 : Ref sig .tc := ⟨.vmem, 77, rfl⟩
abbrev cc10_stg1_0 : Ref sig .tc := ⟨.vmem, 78, rfl⟩
abbrev cc10_stg2_0 : Ref sig .tc := ⟨.vmem, 79, rfl⟩
abbrev cc10_stg3_0 : Ref sig .tc := ⟨.vmem, 80, rfl⟩
abbrev cc10_stg4_0 : Ref sig .tc := ⟨.vmem, 81, rfl⟩
abbrev cc10_stg5_0 : Ref sig .tc := ⟨.vmem, 82, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc4_sem5_0 : DmaSem sig := 38
abbrev cc4_sem6_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc7_sem3_0 : DmaSem sig := 59
abbrev cc7_sem4_0 : DmaSem sig := 60
abbrev cc7_sem4_1 : DmaSem sig := 61
abbrev cc7_sem5_0 : DmaSem sig := 62
abbrev cc7_sem6_0 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71
abbrev cc9_sem0_0 : DmaSem sig := 72
abbrev cc9_sem0_1 : DmaSem sig := 73
abbrev cc9_sem1_0 : DmaSem sig := 74
abbrev cc9_sem1_1 : DmaSem sig := 75
abbrev cc9_sem2_0 : DmaSem sig := 76
abbrev cc10_sem0_0 : DmaSem sig := 77
abbrev cc10_sem1_0 : DmaSem sig := 78
abbrev cc10_sem2_0 : DmaSem sig := 79
abbrev cc10_sem3_0 : DmaSem sig := 80
abbrev cc10_sem4_0 : DmaSem sig := 81
abbrev cc10_sem5_0 : DmaSem sig := 82

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S128x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x2 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x2 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x2 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S1x128_S1x128 : S1x128.ShapeCasts S1x128
  broadcasts_S5000x1_S5000x128 : S5000x1.Broadcasts S5000x128
  broadcasts_S1x128_S5000x128 : S1x128.Broadcasts S5000x128
  reduces_S5000x128_S128 : S5000x128.Reduces [0] S128
  shapeCasts_S128_S1x128 : S128.ShapeCasts S1x128
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S2_S1x2_1 : S2.BroadcastsInDim S1x2 (![1] : Fin 1 → Fin S1x2.rank)
  broadcasts_S1x128_S128x128 : S1x128.Broadcasts S128x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  reduces_S128x2_S128 : S128x2.Reduces [1] S128
  shapeCasts_S128_S128x1 : S128.ShapeCasts S128x1
  broadcasts_S128x1_S128x2 : S128x1.Broadcasts S128x2
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S5000x128_S128x128_0_0_1_1_n_n_wf : DotDims.WF S5000x128 S5000x128 S128x128 [0] [0] [1] [1] [] []
  dot_S128x128_S128x128_S128x128_1_0_0_1_n_n_wf : DotDims.WF S128x128 S128x128 S128x128 [1] [0] [0] [1] [] []
  dot_S128x128_S128x2_S128x2_1_0_0_1_n_n_wf : DotDims.WF S128x128 S128x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S50000x1.size a
  hwx7_2 : ∀ i : grid7.Coords, EltTy.bits .f32 = 32 ∨ (Rect.block (s := S50000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S50000x128.size a
  hwx7_4 : ∀ i : grid7.Coords, EltTy.bits .f32 = 32 ∨ (Rect.block (s := S50000x128) S5000x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .bf16 = 32 ∨ (Rect.block (s := S50000x128) S5000x128.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S50000x128.size a
  hwx9_1 : ∀ i : grid9.Coords, EltTy.bits .f32 = 32 ∨ (Rect.block (s := S50000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S128x128.size a ≤ S128x128.size a
  hwx10_0 : ∀ i : grid10.Coords, EltTy.bits .f32 = 32 ∨ (Rect.block (s := S128x128) S128x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x2.size a ≤ S128x2.size a
  hwx10_3 : ∀ i : grid10.Coords, EltTy.bits .f32 = 32 ∨ (Rect.block (s := S128x2) S128x2.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x2.size a ≤ S1x2.size a
  hwx10_4 : ∀ i : grid10.Coords, EltTy.bits .f32 = 32 ∨ (Rect.block (s := S1x2) S1x2.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x2.size a ≤ S128x2.size a
  hwx10_5 : ∀ i : grid10.Coords, EltTy.bits .f32 = 32 ∨ (Rect.block (s := S128x2) S128x2.size (cc10_transform_5 i) (hinb10_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v48_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v48_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v67) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v28) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v83) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v84_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v84_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v84_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v84_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v93) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v96) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v99) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v100) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v100) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v102) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v103) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v103) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v116) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v28) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v119) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v120_0) S5000x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v120_1) S1x128.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v120_2) S1x128.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v120_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v122) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v129) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v132) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v135) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v136) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v143) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v136) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v146) S128x128.size cc9_transform_2 reads9_2 true true 1 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v151) S128x128.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg5) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v152) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg7) S128x2.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v153) S1x2.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v154) S128x2.size cc10_transform_5 reads10_5 true true 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S50000x128 : Shape := ⟨2, ![50000, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128x128 : Shape := ⟨3, ![1, 128, 128]⟩
abbrev S800000x128 : Shape := ⟨2, ![800000, 128]⟩
abbrev S1x128 : Shape := ⟨2, ![1, 128]⟩
abbrev S128x1 : Shape := ⟨2, ![128, 1]⟩
abbrev S1x2 : Shape := ⟨2, ![1, 2]⟩

abbrev nBuf : Space → Nat
  | .hbm => 360
  | .vmem => 0
  | .smem => 0
  | _ => 0

abbrev hbmTy0_0 (i : Nat) : BufTy := match i % 128 with
  | 0 => ⟨S50000x128, .f32⟩
  | 1 => ⟨S3x128x128, .f32⟩
  | 2 => ⟨S3x128, .f32⟩
  | 3 => ⟨S3x128, .f32⟩
  | 4 => ⟨S3x128, .f32⟩
  | 5 => ⟨S128x128, .f32⟩
  | 6 => ⟨S128, .f32⟩
  | 7 => ⟨S128x2, .f32⟩
  | 8 => ⟨S2, .f32⟩
  | 9 => ⟨S2x800000, .i32⟩
  | 10 => ⟨S50000, .i32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S50000, .f32⟩
  | 47 => ⟨S50000x1, .f32⟩
  | 48 => ⟨S1x128x128, .f32⟩
  | 49 => ⟨S128x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S800000x1, .f32⟩
  | 61 => ⟨S800000x128, .f32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S50000x128, .f32⟩
  | 68 => ⟨S50000x128, .f32⟩
  | 69 => ⟨S50000x128, .f32⟩
  | 70 => ⟨S1x128, .f32⟩
  | 71 => ⟨S128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .i1⟩
  | 78 => ⟨S_, .f32⟩
  | 79 => ⟨S50000x128, .f32⟩
  | 80 => ⟨S50000x128, .i1⟩
  | 81 => ⟨S_, .f32⟩
  | 82 => ⟨S_, .f32⟩
  | 83 => ⟨S50000x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S_, .f32⟩
  | 91 => ⟨S128, .f32⟩
  | 92 => ⟨S_, .f32⟩
  | 93 => ⟨S128, .f32⟩
  | 94 => ⟨S128, .f32⟩
  | 95 => ⟨S_, .i32⟩
  | 96 => ⟨S_, .f32⟩
  | 97 => ⟨S128, .f32⟩
  | 98 => ⟨S1x128, .f32⟩
  | 99 => ⟨S_, .f32⟩
  | 100 => ⟨S1x128, .f32⟩
  | 101 => ⟨S1x128, .f32⟩
  | 102 => ⟨S50000x128, .f32⟩
  | 103 => ⟨S50000x128, .f32⟩
  | 104 => ⟨S50000x128, .f32⟩
  | 105 => ⟨S_, .f32⟩
  | 106 => ⟨S_, .f32⟩
  | 107 => ⟨S_, .f32⟩
  | 108 => ⟨S_, .f32⟩
  | 109 => ⟨S128, .f32⟩
  | 110 => ⟨S128, .f32⟩
  | 111 => ⟨S128, .f32⟩
  | 112 => ⟨S_, .f32⟩
  | 113 => ⟨S_, .i1⟩
  | 114 => ⟨S_, .f32⟩
  | 115 => ⟨S_, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S_, .f32⟩
  | 122 => ⟨S128, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S128, .f32⟩
  | 7 => ⟨S1x128, .f32⟩
  | 8 => ⟨S50000x128, .f32⟩
  | 9 => ⟨S50000x128, .f32⟩
  | 10 => ⟨S1x128x128, .f32⟩
  | 11 => ⟨S128x128, .f32⟩
  | 12 => ⟨S50000x128, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S800000x1, .f32⟩
  | 23 => ⟨S800000x128, .f32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S50000x128, .f32⟩
  | 30 => ⟨S50000x128, .f32⟩
  | 31 => ⟨S50000x128, .f32⟩
  | 32 => ⟨S1x128, .f32⟩
  | 33 => ⟨S128, .f32⟩
  | 34 => ⟨S1x128, .f32⟩
  | 35 => ⟨S50000x128, .f32⟩
  | 36 => ⟨S50000x128, .f32⟩
  | 37 => ⟨S_, .f32⟩
  | 38 => ⟨S50000x128, .f32⟩
  | 39 => ⟨S50000x128, .i1⟩
  | 40 => ⟨S_, .f32⟩
  | 41 => ⟨S50000x128, .f32⟩
  | 42 => ⟨S50000x128, .i1⟩
  | 43 => ⟨S_, .f32⟩
  | 44 => ⟨S_, .f32⟩
  | 45 => ⟨S50000x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S50000x128, .f32⟩
  | 52 => ⟨S_, .f32⟩
  | 53 => ⟨S128, .f32⟩
  | 54 => ⟨S_, .f32⟩
  | 55 => ⟨S128, .f32⟩
  | 56 => ⟨S128, .f32⟩
  | 57 => ⟨S_, .i32⟩
  | 58 => ⟨S_, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S50000x128, .f32⟩
  | 65 => ⟨S50000x128, .f32⟩
  | 66 => ⟨S50000x128, .f32⟩
  | 67 => ⟨S_, .f32⟩
  | 68 => ⟨S_, .f32⟩
  | 69 => ⟨S_, .f32⟩
  | 70 => ⟨S_, .f32⟩
  | 71 => ⟨S128, .f32⟩
  | 72 => ⟨S128, .f32⟩
  | 73 => ⟨S128, .f32⟩
  | 74 => ⟨S_, .f32⟩
  | 75 => ⟨S_, .i1⟩
  | 76 => ⟨S_, .f32⟩
  | 77 => ⟨S_, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S_, .f32⟩
  | 84 => ⟨S128, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S128, .f32⟩
  | 92 => ⟨S1x128, .f32⟩
  | 93 => ⟨S50000x128, .f32⟩
  | 94 => ⟨S50000x128, .f32⟩
  | 95 => ⟨S1x128, .f32⟩
  | 96 => ⟨S128, .f32⟩
  | 97 => ⟨S1x128, .f32⟩
  | 98 => ⟨S50000x128, .f32⟩
  | 99 => ⟨S50000x128, .f32⟩
  | 100 => ⟨S1x128x128, .f32⟩
  | 101 => ⟨S128x128, .f32⟩
  | 102 => ⟨S50000x128, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S800000x1, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S50000x128, .f32⟩
  | 120 => ⟨S50000x128, .f32⟩
  | 121 => ⟨S50000x128, .f32⟩
  | 122 => ⟨S1x128, .f32⟩
  | 123 => ⟨S128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_2 (i : Nat) : BufTy := match i % 128 with
  | 0 => ⟨S50000x128, .f32⟩
  | 1 => ⟨S50000x128, .i1⟩
  | 2 => ⟨S_, .f32⟩
  | 3 => ⟨S50000x128, .f32⟩
  | 4 => ⟨S50000x128, .i1⟩
  | 5 => ⟨S_, .f32⟩
  | 6 => ⟨S_, .f32⟩
  | 7 => ⟨S50000x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S50000x128, .f32⟩
  | 14 => ⟨S_, .f32⟩
  | 15 => ⟨S128, .f32⟩
  | 16 => ⟨S_, .f32⟩
  | 17 => ⟨S128, .f32⟩
  | 18 => ⟨S128, .f32⟩
  | 19 => ⟨S_, .i32⟩
  | 20 => ⟨S_, .f32⟩
  | 21 => ⟨S128, .f32⟩
  | 22 => ⟨S1x128, .f32⟩
  | 23 => ⟨S_, .f32⟩
  | 24 => ⟨S1x128, .f32⟩
  | 25 => ⟨S1x128, .f32⟩
  | 26 => ⟨S50000x128, .f32⟩
  | 27 => ⟨S50000x128, .f32⟩
  | 28 => ⟨S50000x128, .f32⟩
  | 29 => ⟨S_, .f32⟩
  | 30 => ⟨S_, .f32⟩
  | 31 => ⟨S_, .f32⟩
  | 32 => ⟨S_, .f32⟩
  | 33 => ⟨S128, .f32⟩
  | 34 => ⟨S128, .f32⟩
  | 35 => ⟨S128, .f32⟩
  | 36 => ⟨S_, .f32⟩
  | 37 => ⟨S_, .i1⟩
  | 38 => ⟨S_, .f32⟩
  | 39 => ⟨S_, .f32⟩
  | 40 => ⟨S128, .f32⟩
  | 41 => ⟨S128, .f32⟩
  | 42 => ⟨S1x128, .f32⟩
  | 43 => ⟨S50000x128, .f32⟩
  | 44 => ⟨S50000x128, .f32⟩
  | 45 => ⟨S_, .f32⟩
  | 46 => ⟨S128, .f32⟩
  | 47 => ⟨S128, .f32⟩
  | 48 => ⟨S128, .f32⟩
  | 49 => ⟨S1x128, .f32⟩
  | 50 => ⟨S50000x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S_, .f32⟩
  | 63 => ⟨S50000, .f32⟩
  | 64 => ⟨S_, .f32⟩
  | 65 => ⟨S128, .f32⟩
  | 66 => ⟨S50000x1, .i32⟩
  | 67 => ⟨S128, .f32⟩
  | 68 => ⟨S_, .f32⟩
  | 69 => ⟨S128x128, .f32⟩
  | 70 => ⟨S50000x1, .i32⟩
  | 71 => ⟨S128x128, .f32⟩
  | 72 => ⟨S_, .f32⟩
  | 73 => ⟨S128, .f32⟩
  | 74 => ⟨S128, .f32⟩
  | 75 => ⟨S128x1, .f32⟩
  | 76 => ⟨S128x128, .f32⟩
  | 77 => ⟨S128x128, .f32⟩
  | 78 => ⟨S128x128, .f32⟩
  | 79 => ⟨S1x128, .f32⟩
  | 80 => ⟨S128x128, .f32⟩
  | 81 => ⟨S128x128, .f32⟩
  | 82 => ⟨S_, .f32⟩
  | 83 => ⟨S128x128, .f32⟩
  | 84 => ⟨S128x128, .f32⟩
  | 85 => ⟨S128x2, .f32⟩
  | 86 => ⟨S1x2, .f32⟩
  | 87 => ⟨S128x2, .f32⟩
  | 88 => ⟨S128x2, .f32⟩
  | 89 => ⟨S_, .f32⟩
  | 90 => ⟨S128, .f32⟩
  | 91 => ⟨S_, .f32⟩
  | 92 => ⟨S128, .f32⟩
  | 93 => ⟨S128, .f32⟩
  | 94 => ⟨S128x1, .f32⟩
  | 95 => ⟨S128x2, .f32⟩
  | 96 => ⟨S128x2, .f32⟩
  | 97 => ⟨S128x2, .f32⟩
  | 98 => ⟨S_, .f32⟩
  | 99 => ⟨S128, .f32⟩
  | 100 => ⟨S128x1, .f32⟩
  | 101 => ⟨S128x1, .f32⟩
  | 102 => ⟨S128x2, .f32⟩
  | 103 => ⟨S128x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_cst_0 : Ref sig .tc := ⟨.hbm, 78, rfl⟩
abbrev main_call0_v2 : Ref sig .tc := ⟨.hbm, 79, rfl⟩
abbrev main_call0_v3 : Ref sig .tc := ⟨.hbm, 80, rfl⟩
abbrev main_call0_cst_1 : Ref sig .tc := ⟨.hbm, 81, rfl⟩
abbrev main_call0_call0_v0 : Ref sig .tc := ⟨.hbm, 82, rfl⟩
abbrev main_call0_call0_v1 : Ref sig .tc := ⟨.hbm, 83, rfl⟩
abbrev main_call0_v4 : Ref sig .tc := ⟨.hbm, 84, rfl⟩
abbrev main_call0_v5 : Ref sig .tc := ⟨.hbm, 85, rfl⟩
abbrev main_call0_cst_2 : Ref sig .tc := ⟨.hbm, 86, rfl⟩
abbrev main_call0_v6 : Ref sig .tc := ⟨.hbm, 87, rfl⟩
abbrev main_call0_v7 : Ref sig .tc := ⟨.hbm, 88, rfl⟩
abbrev main_v53 : Ref sig .tc := ⟨.hbm, 89, rfl⟩
abbrev main_cst_9 : Ref sig .tc := ⟨.hbm, 90, rfl⟩
abbrev main_v54 : Ref sig .tc := ⟨.hbm, 91, rfl⟩
abbrev main_cst_10 : Ref sig .tc := ⟨.hbm, 92, rfl⟩
abbrev main_v55 : Ref sig .tc := ⟨.hbm, 93, rfl⟩
abbrev main_v56 : Ref sig .tc := ⟨.hbm, 94, rfl⟩
abbrev main_c_11 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_cst_0 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_v7 : Ref sig .tc := ⟨.hbm, 105, rfl⟩
abbrev main_call1_cst_1 : Ref sig .tc := ⟨.hbm, 106, rfl⟩
abbrev main_call1_v8 : Ref sig .tc := ⟨.hbm, 107, rfl⟩
abbrev main_call1_cst_2 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_call1_cst_3 : Ref sig .tc := ⟨.hbm, 112, rfl⟩
abbrev main_call1_v12 : Ref sig .tc := ⟨.hbm, 113, rfl⟩
abbrev main_call1_cst_4 : Ref sig .tc := ⟨.hbm, 114, rfl⟩
abbrev main_call1_call0_v0 : Ref sig .tc := ⟨.hbm, 115, rfl⟩
abbrev main_call1_call0_v1 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_cst_12 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_c_13 : Ref sig .tc := ⟨.hbm, 141, rfl⟩
abbrev main_v80 : Ref sig .tc := ⟨.hbm, 142, rfl⟩
abbrev main_v81 : Ref sig .tc := ⟨.hbm, 143, rfl⟩
abbrev main_c_14 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_cst_15 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_call2_cst : Ref sig .tc := ⟨.hbm, 165, rfl⟩
abbrev main_call2_v0 : Ref sig .tc := ⟨.hbm, 166, rfl⟩
abbrev main_call2_v1 : Ref sig .tc := ⟨.hbm, 167, rfl⟩
abbrev main_call2_cst_0 : Ref sig .tc := ⟨.hbm, 168, rfl⟩
abbrev main_call2_v2 : Ref sig .tc := ⟨.hbm, 169, rfl⟩
abbrev main_call2_v3 : Ref sig .tc := ⟨.hbm, 170, rfl⟩
abbrev main_call2_cst_1 : Ref sig .tc := ⟨.hbm, 171, rfl⟩
abbrev main_call2_call0_v0 : Ref sig .tc := ⟨.hbm, 172, rfl⟩
abbrev main_call2_call0_v1 : Ref sig .tc := ⟨.hbm, 173, rfl⟩
abbrev main_call2_v4 : Ref sig .tc := ⟨.hbm, 174, rfl⟩
abbrev main_call2_v5 : Ref sig .tc := ⟨.hbm, 175, rfl⟩
abbrev main_call2_cst_2 : Ref sig .tc := ⟨.hbm, 176, rfl⟩
abbrev main_call2_v6 : Ref sig .tc := ⟨.hbm, 177, rfl⟩
abbrev main_call2_v7 : Ref sig .tc := ⟨.hbm, 178, rfl⟩
abbrev main_v101 : Ref sig .tc := ⟨.hbm, 179, rfl⟩
abbrev main_cst_16 : Ref sig .tc := ⟨.hbm, 180, rfl⟩
abbrev main_v102 : Ref sig .tc := ⟨.hbm, 181, rfl⟩
abbrev main_cst_17 : Ref sig .tc := ⟨.hbm, 182, rfl⟩
abbrev main_v103 : Ref sig .tc := ⟨.hbm, 183, rfl⟩
abbrev main_v104 : Ref sig .tc := ⟨.hbm, 184, rfl⟩
abbrev main_c_18 : Ref sig .tc := ⟨.hbm, 185, rfl⟩
abbrev main_call3_cst : Ref sig .tc := ⟨.hbm, 186, rfl⟩
abbrev main_call3_v0 : Ref sig .tc := ⟨.hbm, 187, rfl⟩
abbrev main_call3_v1 : Ref sig .tc := ⟨.hbm, 188, rfl⟩
abbrev main_call3_cst_0 : Ref sig .tc := ⟨.hbm, 189, rfl⟩
abbrev main_call3_v2 : Ref sig .tc := ⟨.hbm, 190, rfl⟩
abbrev main_call3_v3 : Ref sig .tc := ⟨.hbm, 191, rfl⟩
abbrev main_call3_v4 : Ref sig .tc := ⟨.hbm, 192, rfl⟩
abbrev main_call3_v5 : Ref sig .tc := ⟨.hbm, 193, rfl⟩
abbrev main_call3_v6 : Ref sig .tc := ⟨.hbm, 194, rfl⟩
abbrev main_call3_v7 : Ref sig .tc := ⟨.hbm, 195, rfl⟩
abbrev main_call3_cst_1 : Ref sig .tc := ⟨.hbm, 196, rfl⟩
abbrev main_call3_v8 : Ref sig .tc := ⟨.hbm, 197, rfl⟩
abbrev main_call3_cst_2 : Ref sig .tc := ⟨.hbm, 198, rfl⟩
abbrev main_call3_v9 : Ref sig .tc := ⟨.hbm, 199, rfl⟩
abbrev main_call3_v10 : Ref sig .tc := ⟨.hbm, 200, rfl⟩
abbrev main_call3_v11 : Ref sig .tc := ⟨.hbm, 201, rfl⟩
abbrev main_call3_cst_3 : Ref sig .tc := ⟨.hbm, 202, rfl⟩
abbrev main_call3_v12 : Ref sig .tc := ⟨.hbm, 203, rfl⟩
abbrev main_call3_cst_4 : Ref sig .tc := ⟨.hbm, 204, rfl⟩
abbrev main_call3_call0_v0 : Ref sig .tc := ⟨.hbm, 205, rfl⟩
abbrev main_call3_call0_v1 : Ref sig .tc := ⟨.hbm, 206, rfl⟩
abbrev main_v105 : Ref sig .tc := ⟨.hbm, 207, rfl⟩
abbrev main_v106 : Ref sig .tc := ⟨.hbm, 208, rfl⟩
abbrev main_v107 : Ref sig .tc := ⟨.hbm, 209, rfl⟩
abbrev main_v108 : Ref sig .tc := ⟨.hbm, 210, rfl⟩
abbrev main_cst_19 : Ref sig .tc := ⟨.hbm, 211, rfl⟩
abbrev main_v109 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_v127 : Ref sig .tc := ⟨.hbm, 230, rfl⟩
abbrev main_c_20 : Ref sig .tc := ⟨.hbm, 231, rfl⟩
abbrev main_v128 : Ref sig .tc := ⟨.hbm, 232, rfl⟩
abbrev main_v129 : Ref sig .tc := ⟨.hbm, 233, rfl⟩
abbrev main_c_21 : Ref sig .tc := ⟨.hbm, 234, rfl⟩
abbrev main_v130 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_cst_22 : Ref sig .tc := ⟨.hbm, 243, rfl⟩
abbrev main_v138 : Ref sig .tc := ⟨.hbm, 244, rfl⟩
abbrev main_v139 : Ref sig .tc := ⟨.hbm, 245, rfl⟩
abbrev main_v140 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_v146 : Ref sig .tc := ⟨.hbm, 252, rfl⟩
abbrev main_v147 : Ref sig .tc := ⟨.hbm, 253, rfl⟩
abbrev main_v148 : Ref sig .tc := ⟨.hbm, 254, rfl⟩
abbrev main_call4_cst : Ref sig .tc := ⟨.hbm, 255, rfl⟩
abbrev main_call4_v0 : Ref sig .tc := ⟨.hbm, 256, rfl⟩
abbrev main_call4_v1 : Ref sig .tc := ⟨.hbm, 257, rfl⟩
abbrev main_call4_cst_0 : Ref sig .tc := ⟨.hbm, 258, rfl⟩
abbrev main_call4_v2 : Ref sig .tc := ⟨.hbm, 259, rfl⟩
abbrev main_call4_v3 : Ref sig .tc := ⟨.hbm, 260, rfl⟩
abbrev main_call4_cst_1 : Ref sig .tc := ⟨.hbm, 261, rfl⟩
abbrev main_call4_call0_v0 : Ref sig .tc := ⟨.hbm, 262, rfl⟩
abbrev main_call4_call0_v1 : Ref sig .tc := ⟨.hbm, 263, rfl⟩
abbrev main_call4_v4 : Ref sig .tc := ⟨.hbm, 264, rfl⟩
abbrev main_call4_v5 : Ref sig .tc := ⟨.hbm, 265, rfl⟩
abbrev main_call4_cst_2 : Ref sig .tc := ⟨.hbm, 266, rfl⟩
abbrev main_call4_v6 : Ref sig .tc := ⟨.hbm, 267, rfl⟩
abbrev main_call4_v7 : Ref sig .tc := ⟨.hbm, 268, rfl⟩
abbrev main_v149 : Ref sig .tc := ⟨.hbm, 269, rfl⟩
abbrev main_cst_23 : Ref sig .tc := ⟨.hbm, 270, rfl⟩
abbrev main_v150 : Ref sig .tc := ⟨.hbm, 271, rfl⟩
abbrev main_cst_24 : Ref sig .tc := ⟨.hbm, 272, rfl⟩
abbrev main_v151 : Ref sig .tc := ⟨.hbm, 273, rfl⟩
abbrev main_v152 : Ref sig .tc := ⟨.hbm, 274, rfl⟩
abbrev main_c_25 : Ref sig .tc := ⟨.hbm, 275, rfl⟩
abbrev main_call5_cst : Ref sig .tc := ⟨.hbm, 276, rfl⟩
abbrev main_call5_v0 : Ref sig .tc := ⟨.hbm, 277, rfl⟩
abbrev main_call5_v1 : Ref sig .tc := ⟨.hbm, 278, rfl⟩
abbrev main_call5_cst_0 : Ref sig .tc := ⟨.hbm, 279, rfl⟩
abbrev main_call5_v2 : Ref sig .tc := ⟨.hbm, 280, rfl⟩
abbrev main_call5_v3 : Ref sig .tc := ⟨.hbm, 281, rfl⟩
abbrev main_call5_v4 : Ref sig .tc := ⟨.hbm, 282, rfl⟩
abbrev main_call5_v5 : Ref sig .tc := ⟨.hbm, 283, rfl⟩
abbrev main_call5_v6 : Ref sig .tc := ⟨.hbm, 284, rfl⟩
abbrev main_call5_v7 : Ref sig .tc := ⟨.hbm, 285, rfl⟩
abbrev main_call5_cst_1 : Ref sig .tc := ⟨.hbm, 286, rfl⟩
abbrev main_call5_v8 : Ref sig .tc := ⟨.hbm, 287, rfl⟩
abbrev main_call5_cst_2 : Ref sig .tc := ⟨.hbm, 288, rfl⟩
abbrev main_call5_v9 : Ref sig .tc := ⟨.hbm, 289, rfl⟩
abbrev main_call5_v10 : Ref sig .tc := ⟨.hbm, 290, rfl⟩
abbrev main_call5_v11 : Ref sig .tc := ⟨.hbm, 291, rfl⟩
abbrev main_call5_cst_3 : Ref sig .tc := ⟨.hbm, 292, rfl⟩
abbrev main_call5_v12 : Ref sig .tc := ⟨.hbm, 293, rfl⟩
abbrev main_call5_cst_4 : Ref sig .tc := ⟨.hbm, 294, rfl⟩
abbrev main_call5_call0_v0 : Ref sig .tc := ⟨.hbm, 295, rfl⟩
abbrev main_call5_call0_v1 : Ref sig .tc := ⟨.hbm, 296, rfl⟩
abbrev main_v153 : Ref sig .tc := ⟨.hbm, 297, rfl⟩
abbrev main_v154 : Ref sig .tc := ⟨.hbm, 298, rfl⟩
abbrev main_v155 : Ref sig .tc := ⟨.hbm, 299, rfl⟩
abbrev main_v156 : Ref sig .tc := ⟨.hbm, 300, rfl⟩
abbrev main_cst_26 : Ref sig .tc := ⟨.hbm, 301, rfl⟩
abbrev main_v157 : Ref sig .tc := ⟨.hbm, 302, rfl⟩
abbrev main_v158 : Ref sig .tc := ⟨.hbm, 303, rfl⟩
abbrev main_v159 : Ref sig .tc := ⟨.hbm, 304, rfl⟩
abbrev main_v160 : Ref sig .tc := ⟨.hbm, 305, rfl⟩
abbrev main_v161 : Ref sig .tc := ⟨.hbm, 306, rfl⟩
abbrev main_v162 : Ref sig .tc := ⟨.hbm, 307, rfl⟩
abbrev main_v163 : Ref sig .tc := ⟨.hbm, 308, rfl⟩
abbrev main_v164 : Ref sig .tc := ⟨.hbm, 309, rfl⟩
abbrev main_v165 : Ref sig .tc := ⟨.hbm, 310, rfl⟩
abbrev main_v166 : Ref sig .tc := ⟨.hbm, 311, rfl⟩
abbrev main_v167 : Ref sig .tc := ⟨.hbm, 312, rfl⟩
abbrev main_v168 : Ref sig .tc := ⟨.hbm, 313, rfl⟩
abbrev main_v169 : Ref sig .tc := ⟨.hbm, 314, rfl⟩
abbrev main_v170 : Ref sig .tc := ⟨.hbm, 315, rfl⟩
abbrev main_v171 : Ref sig .tc := ⟨.hbm, 316, rfl⟩
abbrev main_v172 : Ref sig .tc := ⟨.hbm, 317, rfl⟩
abbrev main_cst_27 : Ref sig .tc := ⟨.hbm, 318, rfl⟩
abbrev main_v173 : Ref sig .tc := ⟨.hbm, 319, rfl⟩
abbrev main_cst_28 : Ref sig .tc := ⟨.hbm, 320, rfl⟩
abbrev main_v174 : Ref sig .tc := ⟨.hbm, 321, rfl⟩
abbrev main_v175 : Ref sig .tc := ⟨.hbm, 322, rfl⟩
abbrev main_v176 : Ref sig .tc := ⟨.hbm, 323, rfl⟩
abbrev main_cst_29 : Ref sig .tc := ⟨.hbm, 324, rfl⟩
abbrev main_v177 : Ref sig .tc := ⟨.hbm, 325, rfl⟩
abbrev main_v178 : Ref sig .tc := ⟨.hbm, 326, rfl⟩
abbrev main_v179 : Ref sig .tc := ⟨.hbm, 327, rfl⟩
abbrev main_cst_30 : Ref sig .tc := ⟨.hbm, 328, rfl⟩
abbrev main_v180 : Ref sig .tc := ⟨.hbm, 329, rfl⟩
abbrev main_v181 : Ref sig .tc := ⟨.hbm, 330, rfl⟩
abbrev main_v182 : Ref sig .tc := ⟨.hbm, 331, rfl⟩
abbrev main_v183 : Ref sig .tc := ⟨.hbm, 332, rfl⟩
abbrev main_v184 : Ref sig .tc := ⟨.hbm, 333, rfl⟩
abbrev main_v185 : Ref sig .tc := ⟨.hbm, 334, rfl⟩
abbrev main_v186 : Ref sig .tc := ⟨.hbm, 335, rfl⟩
abbrev main_v187 : Ref sig .tc := ⟨.hbm, 336, rfl⟩
abbrev main_v188 : Ref sig .tc := ⟨.hbm, 337, rfl⟩
abbrev main_call6_cst : Ref sig .tc := ⟨.hbm, 338, rfl⟩
abbrev main_call6_v0 : Ref sig .tc := ⟨.hbm, 339, rfl⟩
abbrev main_v189 : Ref sig .tc := ⟨.hbm, 340, rfl⟩
abbrev main_v190 : Ref sig .tc := ⟨.hbm, 341, rfl⟩
abbrev main_v191 : Ref sig .tc := ⟨.hbm, 342, rfl⟩
abbrev main_v192 : Ref sig .tc := ⟨.hbm, 343, rfl⟩
abbrev main_v193 : Ref sig .tc := ⟨.hbm, 344, rfl⟩
abbrev main_call7_cst : Ref sig .tc := ⟨.hbm, 345, rfl⟩
abbrev main_call7_v0 : Ref sig .tc := ⟨.hbm, 346, rfl⟩
abbrev main_call7_cst_0 : Ref sig .tc := ⟨.hbm, 347, rfl⟩
abbrev main_call7_v1 : Ref sig .tc := ⟨.hbm, 348, rfl⟩
abbrev main_call7_v2 : Ref sig .tc := ⟨.hbm, 349, rfl⟩
abbrev main_call7_v3 : Ref sig .tc := ⟨.hbm, 350, rfl⟩
abbrev main_call7_v4 : Ref sig .tc := ⟨.hbm, 351, rfl⟩
abbrev main_call7_v5 : Ref sig .tc := ⟨.hbm, 352, rfl⟩
abbrev main_call7_v6 : Ref sig .tc := ⟨.hbm, 353, rfl⟩
abbrev main_call7_cst_1 : Ref sig .tc := ⟨.hbm, 354, rfl⟩
abbrev main_call7_v7 : Ref sig .tc := ⟨.hbm, 355, rfl⟩
abbrev main_call7_v8 : Ref sig .tc := ⟨.hbm, 356, rfl⟩
abbrev main_call7_v9 : Ref sig .tc := ⟨.hbm, 357, rfl⟩
abbrev main_call7_v10 : Ref sig .tc := ⟨.hbm, 358, rfl⟩
abbrev main_v194 : Ref sig .tc := ⟨.hbm, 359, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S3x128x128_S1x128x128_0_0_0 : S3x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  reducesTo_S128x2_S128_d1 : S128x2.ReducesTo [1] S128
  bcast_S128x1_S128x2_0_1 : S128x1.BroadcastsInDim S128x2 (![0, 1] : Fin 2 → Fin S128x2.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  dot_S128x128_S128x128_S128x128_1_0_0_1_n_n_wf : DotDims.WF S128x128 S128x128 S128x128 [1] [0] [0] [1] [] []
  dot_S128x128_S128x2_S128x2_1_0_0_1_n_n_wf : DotDims.WF S128x128 S128x2 S128x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

class Facts : Prop extends Facts₀ where

variable [Facts]
-- ==== Proof.Spec.lean ====
import Idealize.ShloMosaic.PureOps.Ideal
import Idealize.ShloMosaic.Lib.ValueIdx

noncomputable section

namespace Cert.Gcn

open Idealize.ShloMosaic Idealize.ShloMosaic.ValueIdx

abbrev Mat : Type := (⟨2, ![50000, 128]⟩ : Shape).Idx → EReal

abbrev Sq : Type := (⟨2, ![128, 128]⟩ : Shape).Idx → EReal

abbrev Out : Type := (⟨2, ![128, 2]⟩ : Shape).Idx → EReal

abbrev cN : EReal := Ideal.ofBits .f32 0x47435000#32

abbrev cEps : EReal := Ideal.ofBits .f32 0x3727C5AC#32
abbrev cOne : EReal := Ideal.ofBits .f32 0x3F800000#32
abbrev cZero : EReal := Ideal.ofBits .f32 0x00000000#32
abbrev cNegInf : EReal := Ideal.ofBits .f32 0xFF800000#32

abbrev cNaN : EReal := Ideal.ofBits .f32 0x7FC00000#32

def Fin2 {s : Shape} (x : s.Idx → EReal) : Prop := ∀ i, x i ≠ ⊤ ∧ x i ≠ ⊥

def FinV {ι : Type} (v : ι → EReal) : Prop := ∀ i, v i ≠ ⊤ ∧ v i ≠ ⊥

def mm (x : Mat) (w : Sq) : Mat := fun i => ∑ k : Fin 128, x (ix2 (i 0) k) * w (ix2 k (i 1))

def pre (a : Mat) (sn : Fin 50000 → EReal) (h : Mat) (b : Fin 128 → EReal) : Mat :=
  fun i => a i + sn (i 0) * h i + b (i 1)

def eluK (p : EReal) : EReal := if cZero < p then p else Ideal.exp p - cOne

def eluR (p : EReal) : EReal :=
  if cZero < p then p else cOne * (Ideal.exp (if cZero < p then cZero else p) - 1)

def colSum (e : Mat) (d : Fin 128) : EReal := ∑ n : Fin 50000, e (ix2 n d)

def meanOf (e : Mat) (d : Fin 128) : EReal := Ideal.div (colSum e d) cN

def varK (e : Mat) (d : Fin 128) : EReal :=
  Ideal.div (colSum (fun i => e i * e i) d) cN - meanOf e d * meanOf e d

def varR (e : Mat) (d : Fin 128) : EReal :=
  if cZero < cN - 0 then
    Ideal.div (colSum (fun i => (e i - meanOf e (i 1)) * (e i - meanOf e (i 1))) d) (cN - 0)
  else cNaN

def bnorm (e : Mat) (mu istd g be : Fin 128 → EReal) : Mat :=
  fun i => (e i - mu (i 1)) * istd (i 1) * g (i 1) + be (i 1)

def layerK (agg : Mat → Mat) (sn : Fin 50000 → EReal) (x : Mat) (w : Sq) (b g be : Fin 128 → EReal) : Mat :=
  bnorm (fun i => eluK (pre (agg (mm x w)) sn (mm x w) b i))
    (meanOf (fun i => eluK (pre (agg (mm x w)) sn (mm x w) b i)))
    (fun d => Ideal.rsqrt (varK (fun i => eluK (pre (agg (mm x w)) sn (mm x w) b i)) d + cEps)) g be

def layerR (agg : Mat → Mat) (sn : Fin 50000 → EReal) (x : Mat) (w : Sq) (b g be : Fin 128 → EReal) : Mat :=
  bnorm (fun i => eluR (pre (agg (mm x w)) sn (mm x w) b i))
    (meanOf (fun i => eluR (pre (agg (mm x w)) sn (mm x w) b i)))
    (fun d => Ideal.rsqrt (varR (fun i => eluR (pre (agg (mm x w)) sn (mm x w) b i)) d + cEps)) g be

def ohOf (batch : Fin 50000 → BitVec 32) : Mat :=
  fun i => if batch (i 0) = BitVec.ofNat 32 (i 1).val then (1 : EReal) else 0

def poolSumK (oh : Mat) (x : Mat) : Sq := fun i => ∑ n : Fin 50000, oh (ix2 n (i 0)) * x (ix2 n (i 1))

def countK (oh : Mat) (g : Fin 128) : EReal := cZero + ∑ n : Fin 50000, oh (ix2 n g)

def pooledK (batch : Fin 50000 → BitVec 32) (x : Mat) : Sq :=
  fun i => Ideal.div (poolSumK (ohOf batch) x i) (max (countK (ohOf batch) (i 0)) cOne)

def pooledR (batch : Fin 50000 → BitVec 32) (x : Mat) : Sq :=
  fun i => Ideal.div
    (cZero + ∑ n ∈ Finset.univ.filter (fun n : Fin 50000 => (batch n).toInt = ((i 0).val : Int)), x (ix2 n (i 1)))
    (max (cZero + ∑ _n ∈ Finset.univ.filter (fun n : Fin 50000 => (batch n).toInt = ((i 0).val : Int)), cOne) cOne)

def mlp (p : Sq) (w1 : Sq) (b1 : Fin 128 → EReal) (w2 : Out) (b2 : Fin 2 → EReal) : Out :=
  let h1 : Sq := fun i => max ((∑ k : Fin 128, p (ix2 (i 0) k) * w1 (ix2 k (i 1))) + b1 (i 1)) cZero
  let lg : Out := fun i => (∑ k : Fin 128, h1 (ix2 (i 0) k) * w2 (ix2 k (i 1))) + b2 (i 1)
  let mx : Fin 128 → EReal := fun g => max (lg (ix2 g 0)) (lg (ix2 g 1))
  let z : Out := fun i => lg i - mx (i 0)
  let lse : Fin 128 → EReal := fun g => Ideal.log (Ideal.exp (z (ix2 g 0)) + Ideal.exp (z (ix2 g 1)))
  fun i => z i - lse (i 0)

def wOf (W : (⟨3, ![3, 128, 128]⟩ : Shape).Idx → EReal) (l : Fin 3) : Sq := fun j => W (ix3 l (j 0) (j 1))

def rowOf (B : (⟨2, ![3, 128]⟩ : Shape).Idx → EReal) (l : Fin 3) : Fin 128 → EReal := fun d => B (ix2 l d)

def netK (agg : Mat → Mat) (sn : Fin 50000 → EReal) (x : Mat) (W : (⟨3, ![3, 128, 128]⟩ : Shape).Idx → EReal)
    (B G Be : (⟨2, ![3, 128]⟩ : Shape).Idx → EReal) (l1w : Sq) (l1b : (⟨1, ![128]⟩ : Shape).Idx → EReal) (l2w : Out)
    (l2b : (⟨1, ![2]⟩ : Shape).Idx → EReal) (batch : (⟨1, ![50000]⟩ : Shape).Idx → BitVec 32) : Out :=
  mlp (pooledK (fun n => batch (ix1 n))
        (layerK agg sn (layerK agg sn (layerK agg sn x (wOf W 0) (rowOf B 0) (rowOf G 0) (rowOf Be 0))
          (wOf W 1) (rowOf B 1) (rowOf G 1) (rowOf Be 1)) (wOf W 2) (rowOf B 2) (rowOf G 2) (rowOf Be 2)))
    l1w (fun d => l1b (ix1 d)) l2w (fun d => l2b (ix1 d))

def netR (agg : Mat → Mat) (sn : Fin 50000 → EReal) (x : Mat) (W : (⟨3, ![3, 128, 128]⟩ : Shape).Idx → EReal)
    (B G Be : (⟨2, ![3, 128]⟩ : Shape).Idx → EReal) (l1w : Sq) (l1b : (⟨1, ![128]⟩ : Shape).Idx → EReal) (l2w : Out)
    (l2b : (⟨1, ![2]⟩ : Shape).Idx → EReal) (batch : (⟨1, ![50000]⟩ : Shape).Idx → BitVec 32) : Out :=
  mlp (pooledR (fun n => batch (ix1 n))
        (layerR agg sn (layerR agg sn (layerR agg sn x (wOf W 0) (rowOf B 0) (rowOf G 0) (rowOf Be 0))
          (wOf W 1) (rowOf B 1) (rowOf G 1) (rowOf Be 1)) (wOf W 2) (rowOf B 2) (rowOf G 2) (rowOf Be 2)))
    l1w (fun d => l1b (ix1 d)) l2w (fun d => l2b (ix1 d))

end Cert.Gcn

end
-- ==== Proof.KRegRows.lean ====
import proofs.«427771_j81243601371607_1_alg».proof.Proof.Gen.KernelIdeal.Frame
import proofs.«427771_j81243601371607_1_alg».proof.Proof.Spec
import Idealize.ShloMosaic.Lib.ValueLayout
import Idealize.ShloMosaic.Lib.StackMember
import Idealize.ShloMosaic.Lib.KernelVsHost

noncomputable section

namespace Cert.KernelIdeal.Val

open Idealize.ShloMosaic Idealize.ShloMosaic.ValueIdx Cert.KernelIdeal Cert.KernelIdeal.Gen

theorem zeroOff : (![0, 0] : Fin 2 → Nat) = fun _ => 0 := funext fun a => by fin_cases a <;> rfl

-- A product accumulated from zero is the plain product; narrowing changes no extended real.
theorem mmEntry (x0 : Vec Ideal S5000x128 .f32) (x1 : Vec Ideal S128x128 .f32) (p : Fin 5000) (q : Fin 128) :
    (matmul dot_S5000x128_S128x128_S5000x128_1_0_0_1_n_n none (truncf .bf16 x0 bitsLt_bf16_f32)
      (truncf .bf16 x1 bitsLt_bf16_f32) (constant S5000x128 .f32 0x00000000#32) : FVec Ideal S5000x128 .f32) (ix2 p q)
      = ∑ k : Fin 128, x0 (ix2 p k) * x1 (ix2 k q) :=
  (congrFun (matmul_zero_eq_dotGeneral _ none _ _) _).trans (StackMember.dotGeneral_plain_apply none _ _ p q)

-- Pointwise arithmetic against four rows copied down the block.
theorem bnEntry (x0 : Vec Ideal S5000x128 .f32) (x1 x2 x3 x4 : Vec Ideal S1x128 .f32) (p : Fin 5000) (q : Fin 128)
    {a b d g e : EReal} (ha : x0 (ix2 p q) = a) (hb : x1 (ix2 0 q) = b) (hd : x2 (ix2 0 q) = d) (hg : x3 (ix2 0 q) = g)
    (he : x4 (ix2 0 q) = e) : k2_pay1 x0 x1 x2 x3 x4 (ix2 p q) = (a - b) * d * g + e := by
  unfold k2_pay1
  simp only [shapeCast_self]
  rw [addf_apply, mulf_apply, mulf_apply, subf_apply]
  simp only [broadcastTo_1b_ab_apply, ha, hb, hd, hg, he]

-- Row r lies in the block of number r / 5000.
theorem rowCover {N : ℕ} (idx : Fin N → Fin 2 → ℕ) (hN : N = 10) (h : ∀ t, idx t 0 = t.val ∧ idx t 1 = 0) (i : S50000x128.Idx) :
    ∃ t, ∀ a, idx t a * S5000x128.size a ≤ (i a).val ∧ (i a).val < idx t a * S5000x128.size a + S5000x128.size a := by
  have h0 : (i 0).val < 50000 := (i 0).isLt
  have h1 : (i 1).val < 128 := (i 1).isLt
  subst hN
  obtain ⟨e0, e1⟩ := h ⟨(i 0).val / 5000, by omega⟩
  refine ⟨⟨(i 0).val / 5000, by omega⟩, fun a => ?_⟩
  match a with
  | ⟨0, _⟩ => show idx _ 0 * 5000 ≤ (i 0).val ∧ (i 0).val < idx _ 0 * 5000 + 5000; rw [e0]; show (i 0).val / 5000 * 5000 ≤ _ ∧ _ < (i 0).val / 5000 * 5000 + 5000; omega
  | ⟨1, _⟩ => show idx _ 1 * 128 ≤ (i 1).val ∧ (i 1).val < idx _ 1 * 128 + 128; rw [e1]; omega

end Cert.KernelIdeal.Val

end
-- ==== Proof.KReg0.lean ====
import proofs.«427771_j81243601371607_1_alg».proof.Proof.KRegRows

noncomputable section

namespace Cert.KernelIdeal.Val

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

theorem mmBlockIdx_r0 : ∀ t : Fin cfg0.N, (win0_2.index t 0 = t.val ∧ win0_2.index t 1 = 0) ∧ win0_0.index t 0 = t.val
    ∧ win0_0.index t 1 = 0 ∧ win0_1.index t 0 = 0 ∧ win0_1.index t 1 = 0 :=
  (by decide +kernel : ∀ t : Fin grid0.N, _)

-- Block t of the product is the block's rows times the whole right factor.
theorem mmFlushed_r0 (c : Dev nD) (t : Fin cfg0.N) :
    (dat0 (F := Ideal) V c).flushed 2 t = ((cfg0.win 2).blk t).view.read (Elt Ideal)
      (Gcn.mm (V c (Pipeline.arrRef spec0 0)) (V c (Pipeline.arrRef spec0 1))) := by
  obtain ⟨⟨e4, e5⟩, e0, e1, e2, e3⟩ := mmBlockIdx_r0 t
  show (cfg0.win 2).cut (grid0.coords t) ((dat0 (F := Ideal) V c).after 2 t) = _
  rw [after0_2]
  unfold out0_2
  rw [View.canon_unit_zero zeroOff]
  simp only [View.ld_unit_zero (S := S5000x128) zeroOff, View.ld_unit_zero (S := S128x128) zeroOff]
  funext j
  obtain ⟨p, q, rfl⟩ : ∃ (p : Fin 5000) (q : Fin 128), j = ix2 p q := ⟨j 0, j 1, eq_ix2 j⟩
  refine (by unfold k0_pay1; simp only [shapeCast_self]; exact mmEntry _ _ p q :
    k0_pay1 (F := Ideal) (iblk0 V c 0 t) (iblk0 V c 1 t) (ix2 p q) = _).trans ?_
  show _ = Gcn.mm _ _ (((cfg0.win 2).blk t).view.emb (ix2 p q))
  unfold Gcn.mm iblk0
  refine Finset.sum_congr rfl fun k _ => ?_
  refine congrArg₂ _ (congrArg (V c _) (Shape.idx_ext₂ ?_ ?_)) (congrArg (V c _) (Shape.idx_ext₂ ?_ ?_))
  · show win0_0.index t 0 * 5000 + 1 * p.val = win0_2.index t 0 * 5000 + 1 * p.val; omega
  · show win0_0.index t 1 * 128 + 1 * k.val = k.val; omega
  · show win0_1.index t 0 * 128 + 1 * k.val = k.val; omega
  · show win0_1.index t 1 * 128 + 1 * q.val = win0_2.index t 1 * 128 + 1 * q.val; omega

theorem mm_final0 (c : Dev nD) :
    (dat0 (F := Ideal) V c).arrAt 2 cfg0.N
      = Gcn.mm (V c (Pipeline.arrRef spec0 0)) (V c (Pipeline.arrRef spec0 1)) :=
  (dat0 (F := Ideal) V c).arrAt_eq_of_cover 2 _ (fun t _ => mmFlushed_r0 V c t) fun i => by
    obtain ⟨t, h⟩ := rowCover win0_2.index N_0 (fun t => (mmBlockIdx_r0 t).1) i
    refine ⟨t, flush0_2 t, ?_⟩
    show i ∈ ((View.whole (Pipeline.arrRef spec0 2)).slice (win0_2.rect t)).set
    rw [View.set_slice_whole, Rect.mem_set_unit]
    exact h

end Cert.KernelIdeal.Val

end
-- ==== Proof.KRegComb.lean ====
import proofs.«427771_j81243601371607_1_alg».proof.Proof.Gen.KernelIdeal.Skeleton
import proofs.«427771_j81243601371607_1_alg».proof.Proof.Spec
import Idealize.ShloMosaic.PureOps.Ideal.Laws
import Idealize.ShloMosaic.Lib.Pipeline.Value
import Idealize.ShloMosaic.Lib.ValueLayout

noncomputable section

namespace Cert.KernelIdeal.Val

open Idealize.ShloMosaic Idealize.ShloMosaic.ValueIdx Cert.KernelIdeal Cert.KernelIdeal.Gen

theorem comb_hz : (![0, 0] : Fin 2 → Nat) = fun _ => 0 := funext fun a => by fin_cases a <;> rfl

-- What one grid point leaves in the activation block and in the two rows of running sums s and q.
def combOuts {F : FTy → Type} [FloatOps F] (x0 x1 : Vec F S5000x128 .f32) (x2 : Vec F S5000x1 .f32) (x3 s q : Vec F S1x128 .f32) :
    Vec F S5000x128 .f32 × Vec F S1x128 .f32 × Vec F S1x128 .f32 :=
  (k1_pay4 x0 x1 x2 x3, k1_pay5 x0 x1 x2 x3 s, k1_pay1 (k1_pay6 q) (k1_pay7 x0 x1 x2 x3))

theorem comb_ix2_eq {m n : ℕ} {i : (⟨2, ![m, n]⟩ : Shape).Idx} {p : Fin m} {q : Fin n} (h0 : (i 0).val = p.val)
    (h1 : (i 1).val = q.val) : i = ix2 p q :=
  (eq_ix2 i).trans (congrArg₂ ix2 (Fin.ext h0) (Fin.ext h1))

theorem comb_select_ogt (z p a b : EReal) : Scalar.select (Ideal.cmp .ogt p z) a b = if z < p then a else b := by
  unfold Scalar.select Ideal.cmp
  by_cases h : z < p <;> simp [h]

theorem comb_exp_at {s : Shape} (v : FVec Ideal s .f32) (i : s.Idx) : exp v i = Ideal.exp (v i) := rfl

variable (x0 x1 : Vec Ideal S5000x128 .f32) (x2 : Vec Ideal S5000x1 .f32) (x3 s q : Vec Ideal S1x128 .f32) (d : Fin 128)

-- The activation block at row r, channel d: ELU of aggregate plus self weight times product plus bias.
theorem comb_pay4_apply (r : Fin 5000) :
    k1_pay4 x0 x1 x2 x3 (ix2 r d) = Gcn.eluK (x1 (ix2 r d) + x2 (ix2 r 0) * x0 (ix2 r d) + x3 (ix2 0 d)) := by
  have e1 : broadcastTo S5000x128 x2 broadcasts_S5000x1_S5000x128 (ix2 r d) = x2 (ix2 r 0) :=
    broadcastTo_apply x2 _ (ix2 r d) (ix2 r 0) (fun a => by match a with | ⟨0, _⟩ => rfl | ⟨1, _⟩ => rfl)
  unfold k1_pay4
  simp only [shapeCast_self, select_apply, cmpf_apply, addf_apply, mulf_apply, subf_apply, broadcast_apply, comb_exp_at, e1,
    broadcastTo_1b_ab_apply]
  exact comb_select_ogt _ _ _ _

-- A sum over the rows of a block, as a row, reads at channel d the sum of column d.
theorem comb_colsum_apply {v : FVec Ideal S5000x128 .f32} {f : ℕ → EReal} (hv : ∀ r : Fin 5000, v (ix2 r d) = f r) :
    shapeCast S1x128 (multiReduction (F := Ideal) .add [0] S128 v 0x00000000#32 reduces_S5000x128_S128 (.inl rfl) rfl)
      shapeCasts_S128_S1x128 (ix2 0 d) = ∑ r ∈ Finset.range 5000, f r := by
  rw [shapeCast_a_1a_apply, Finset.sum_range]
  refine (Ideal.multiReduction_add_single v _ reduces_S5000x128_S128 (.inl rfl) rfl (ix1 d)).trans
    (Finset.sum_congr rfl fun k _ => (congrArg v ?_).trans (hv k))
  funext a
  match a with
  | ⟨0, _⟩ => rfl
  | ⟨1, _⟩ => rfl

variable {x0 x1 x2 x3 d} {g : ℕ → EReal} {b : ℕ} (hg : ∀ r : Fin 5000, k1_pay4 x0 x1 x2 x3 (ix2 r d) = g (b + r))
include hg

-- When column d of the block is the stretch of g from b, the row of sums grows by that stretch's sum,
theorem comb_sum_step : (combOuts x0 x1 x2 x3 s q).2.1 (ix2 0 d) = s (ix2 0 d) + ∑ r ∈ Finset.range 5000, g (b + r) := by
  unfold combOuts k1_pay5
  simp only [shapeCast_self, addf_apply]
  exact congrArg (s (ix2 0 d) + ·) (comb_colsum_apply d (f := fun r => g (b + r)) hg)

-- and the row of sums of squares by the sum of its squares.
theorem comb_sq_step :
    (combOuts x0 x1 x2 x3 s q).2.2 (ix2 0 d) = q (ix2 0 d) + ∑ r ∈ Finset.range 5000, g (b + r) * g (b + r) := by
  unfold combOuts k1_pay1 k1_pay6 k1_pay7
  simp only [shapeCast_self, addf_apply]
  exact congrArg (q (ix2 0 d) + ·) (comb_colsum_apply d (f := fun r => g (b + r) * g (b + r)) fun r => by rw [mulf_apply, hg])

omit hg

theorem comb_pay2_apply (j : S1x128.Idx) : k1_pay2 (F := Ideal) j = 0 := Ideal.ofBits_zero_f32

theorem comb_pay3_apply (j : S1x128.Idx) : k1_pay3 (F := Ideal) j = 0 := Ideal.ofBits_zero_f32

-- Column d of a matrix as a sequence over all naturals: zero past the last row.
def combSeq (E : Gcn.Mat) (d : Fin 128) (n : ℕ) : EReal := if h : n < 50000 then E (ix2 ⟨n, h⟩ d) else 0

theorem combSeq_total (E : Gcn.Mat) (d : Fin 128) (f : EReal → EReal) :
    ∑ k ∈ Finset.range 50000, f (combSeq E d k) = ∑ n : Fin 50000, f (E (ix2 n d)) := by
  rw [Finset.sum_range]
  exact Finset.sum_congr rfl fun n _ => by rw [combSeq, dif_pos n.isLt]

section Acc
variable {N : ℕ} (hN : N = 10) {H A : Fin N → Vec Ideal S5000x128 .f32} {S : Fin N → Vec Ideal S5000x1 .f32}
  {B : Fin N → Vec Ideal S1x128 .f32}
  {outs : ∀ n, n < N → Vec Ideal S5000x128 .f32 × Vec Ideal S1x128 .f32 × Vec Ideal S1x128 .f32} {E : Gcn.Mat}
  (hE : ∀ (t : Fin N) (r : Fin 5000) (d : Fin 128) (h : 5000 * t.val + r.val < 50000),
    k1_pay4 (H t) (A t) (S t) (B t) (ix2 r d) = E (ix2 ⟨5000 * t.val + r.val, h⟩ d))
  (hA : ∀ t : Fin N, t.val % 10 = 0 → outs t.val t.isLt = combOuts (H t) (A t) (S t) (B t) (k1_pay2 (F := Ideal)) (k1_pay3 (F := Ideal)))
  (hB : ∀ t : Fin N, ¬t.val % 10 = 0 → outs t.val t.isLt = combOuts (H t) (A t) (S t) (B t)
    (outs (t.val - 1) (Nat.lt_of_le_of_lt (Nat.sub_le _ _) t.isLt)).2.1
    (outs (t.val - 1) (Nat.lt_of_le_of_lt (Nat.sub_le _ _) t.isLt)).2.2)
include hN hE

theorem comb_seq (t : Fin N) (d : Fin 128) (r : Fin 5000) :
    k1_pay4 (H t) (A t) (S t) (B t) (ix2 r d) = combSeq E d (5000 * t.val + r) := by
  have h : 5000 * t.val + r.val < 50000 := by have := t.isLt; have := r.isLt; omega
  rw [combSeq, dif_pos h]
  exact hE t r d h

include hA hB

-- After point n the two rows hold, in every column, the sums over the first 5000 (n + 1) rows.
theorem comb_after : ∀ (n : ℕ) (hn : n < N) (d : Fin 128),
    (outs n hn).2.1 (ix2 0 d) = ∑ k ∈ Finset.range (5000 * (n + 1)), combSeq E d k
      ∧ (outs n hn).2.2 (ix2 0 d) = ∑ k ∈ Finset.range (5000 * (n + 1)), combSeq E d k * combSeq E d k
  | 0, hn, d => by
    rw [hA ⟨0, hn⟩ rfl, comb_sum_step _ _ (comb_seq hN hE _ d), comb_sq_step _ _ (comb_seq hN hE _ d),
      comb_pay2_apply, comb_pay3_apply]
    simp only [zero_add, Nat.mul_zero, Nat.mul_one, and_self]
  | n + 1, hn, d => by
    rw [hB ⟨n + 1, hn⟩ (by dsimp only; omega), comb_sum_step _ _ (comb_seq hN hE _ d),
      comb_sq_step _ _ (comb_seq hN hE _ d), Nat.mul_succ 5000 (n + 1), Finset.sum_range_add, Finset.sum_range_add]
    exact ⟨congrArg (· + _) (comb_after n _ d).1, congrArg (· + _) (comb_after n _ d).2⟩

-- Every point leaves the activation block of its rows,
theorem comb_e (t : Fin N) : (outs t.val t.isLt).1 = k1_pay4 (H t) (A t) (S t) (B t) := by
  by_cases h0 : t.val % 10 = 0
  · rw [hA t h0, combOuts]
  · rw [hB t h0, combOuts]

-- and the last point leaves the column sums over all rows and those of the squares.
theorem comb_s (t : Fin N) (h9 : t.val % 10 = 9) : (outs t.val t.isLt).2.1 = fun j => Gcn.colSum E (j 1) := by
  funext j
  obtain ⟨r, d, rfl⟩ : ∃ (r : Fin 1) (d : Fin 128), j = ix2 r d := ⟨j 0, j 1, eq_ix2 j⟩
  obtain rfl : r = 0 := Subsingleton.elim _ _
  refine ((comb_after hN hE hA hB t.val t.isLt d).1.trans ?_)
  rw [show t.val = 9 by have := t.isLt; omega]
  exact combSeq_total E d id

theorem comb_q (t : Fin N) (h9 : t.val % 10 = 9) :
    (outs t.val t.isLt).2.2 = fun j => Gcn.colSum (fun i => E i * E i) (j 1) := by
  funext j
  obtain ⟨r, d, rfl⟩ : ∃ (r : Fin 1) (d : Fin 128), j = ix2 r d := ⟨j 0, j 1, eq_ix2 j⟩
  obtain rfl : r = 0 := Subsingleton.elim _ _
  refine ((comb_after hN hE hA hB t.val t.isLt d).2.trans ?_)
  rw [show t.val = 9 by have := t.isLt; omega]
  exact combSeq_total E d fun x => x * x

end Acc

end Cert.KernelIdeal.Val

end
-- ==== Proof.KReg1.lean ====
import proofs.«427771_j81243601371607_1_alg».proof.Proof.Gen.KernelIdeal.Frame
import proofs.«427771_j81243601371607_1_alg».proof.Proof.KRegComb
import Idealize.ShloMosaic.Lib.Tactic

noncomputable section

namespace Cert.KernelIdeal.Val

open Idealize.ShloMosaic Idealize.ShloMosaic.TcCoe Idealize.ShloMosaic.ValueIdx Idealize.SL.Sem Cert.KernelIdeal Cert.KernelIdeal.Gen
open Idealize.ShloMosaic.Tactic

variable (V : (c : Dev nD) → (b : Ref sig .tc) → Buf (Elt Ideal) ((c : Thread nD τ).loc b))

-- The activated convolution over the region's entry arrays: product 0, aggregate 1, self weights 2 (a column), bias 3 (a row).
def eOf1 (c : Dev nD) : Gcn.Mat := fun i =>
  Gcn.eluK (Gcn.pre (V c (Pipeline.arrRef spec1 1)) (fun n => V c (Pipeline.arrRef spec1 2) (ix2 n 0))
    (V c (Pipeline.arrRef spec1 0)) (fun d => V c (Pipeline.arrRef spec1 3) (ix2 0 d)) i)

theorem comb1_idx : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

-- Row r of point t's block is row 5000 t + r of its array; the bias row is its own one block.
theorem comb1_emb (t : Fin cfg1.N) (r : Fin 5000) (d : Fin 128) (h : 5000 * t.val + r.val < 50000) :
    ((cfg1.win 0).blk t).view.emb (ix2 r d) = ix2 ⟨_, h⟩ d ∧ ((cfg1.win 1).blk t).view.emb (ix2 r d) = ix2 ⟨_, h⟩ d
      ∧ ((cfg1.win 2).blk t).view.emb (ix2 r 0) = ix2 ⟨_, h⟩ 0 ∧ ((cfg1.win 3).blk t).view.emb (ix2 0 d) = ix2 0 d
      ∧ ((cfg1.win 4).blk t).view.emb (ix2 r d) = ix2 ⟨_, h⟩ d := by
  obtain ⟨⟨h00, h01⟩, ⟨h10, h11⟩, ⟨h20, h21⟩, ⟨h30, h31⟩, ⟨h40, h41⟩, -⟩ := comb1_idx t
  exact ⟨comb_ix2_eq
      (show win1_0.index t (0 : Fin 2) * 5000 + 1 * r.val = 5000 * t.val + r.val by rw [h00]; omega)
      (show win1_0.index t (1 : Fin 2) * 128 + 1 * d.val = d.val by rw [h01]; omega),
    comb_ix2_eq
      (show win1_1.index t (0 : Fin 2) * 5000 + 1 * r.val = 5000 * t.val + r.val by rw [h10]; omega)
      (show win1_1.index t (1 : Fin 2) * 128 + 1 * d.val = d.val by rw [h11]; omega),
    comb_ix2_eq
      (show win1_2.index t (0 : Fin 2) * 5000 + 1 * r.val = 5000 * t.val + r.val by rw [h20]; omega)
      (show win1_2.index t (1 : Fin 2) * 1 + 1 * 0 = 0 by rw [h21]),
    comb_ix2_eq
      (show win1_3.index t (0 : Fin 2) * 1 + 1 * 0 = 0 by rw [h30])
      (show win1_3.index t (1 : Fin 2) * 128 + 1 * d.val = d.val by rw [h31]; omega),
    comb_ix2_eq
      (show win1_4.index t (0 : Fin 2) * 5000 + 1 * r.val = 5000 * t.val + r.val by rw [h40]; omega)
      (show win1_4.index t (1 : Fin 2) * 128 + 1 * d.val = d.val by rw [h41]; omega)⟩

-- The activations the body computes at point t are the activated convolution on rows 5000 t … 5000 t + 4999.
theorem comb1_pay4_blk (c : Dev nD) (t : Fin cfg1.N) (r : Fin 5000) (d : Fin 128) (h : 5000 * t.val + r.val < 50000) :
    k1_pay4 (F := Ideal) (iblk1 V c 0 t) (iblk1 V c 1 t) (iblk1 V c 2 t) (iblk1 V c 3 t) (ix2 r d)
      = eOf1 V c (ix2 ⟨5000 * t.val + r.val, h⟩ d) := by
  obtain ⟨e0, e1, e2, e3, -⟩ := comb1_emb t r d h
  refine (comb_pay4_apply _ _ _ _ d r).trans ?_
  unfold iblk1
  rw [View.read_apply, View.read_apply, View.read_apply, View.read_apply, e0, e1, e2, e3]
  rfl

-- At a reset point the three outputs are the point's activations and their column sums over zero rows,
theorem comb1_hA (c : Dev nD) (t : Fin cfg1.N) (h0 : t.val % 10 = 0) :
    outsAt1 V c t.val t.isLt = combOuts (iblk1 V c 0 t) (iblk1 V c 1 t) (iblk1 V c 2 t) (iblk1 V c 3 t)
      (k1_pay2 (F := Ideal)) (k1_pay3 (F := Ideal)) := by
  rw [outsAt1_A V c t h0]
  unfold out1_A_4 out1_A_5 out1_A_6
  rw [View.read_writes_eq_canon _ _ _ fun y => cover1_A_4 (y := y) ..,
    View.read_writes_eq_canon _ _ _ fun y => cover1_A_5 (y := y) ..,
    View.read_writes_eq_canon _ _ _ fun y => cover1_A_6 (y := y) ..]
  unfold kernelRun1_A
  dsimp only
  sl_unfold_words
  simp only [View.canon_cons_unit_zero (S := S5000x128) comb_hz, View.canon_cons_unit_zero (S := S1x128) comb_hz, View.readAt_eq_ld,
    (hs1_0 t).read_unread, (hs1_1 t).read_unread, (hs1_2 t).read_unread, (hs1_3 t).read_unread, (hs1_5 t).read_unread, (hs1_6 t).read_unread,
    View.readCov_unit_zero (S := S1x128) _ comb_hz, View.ld_unit_zero (S := S5000x128) comb_hz, View.ld_unit_zero (S := S5000x1) comb_hz,
    View.ld_unit_zero (S := S1x128) comb_hz]
  rfl

-- at any other point over the rows the point before left.
theorem comb1_hB (c : Dev nD) (t : Fin cfg1.N) (h0 : ¬t.val % 10 = 0) :
    outsAt1 V c t.val t.isLt = combOuts (iblk1 V c 0 t) (iblk1 V c 1 t) (iblk1 V c 2 t) (iblk1 V c 3 t)
      (outsAt1 V c (t.val - 1) (Nat.lt_of_le_of_lt (Nat.sub_le _ _) t.isLt)).2.1
      (outsAt1 V c (t.val - 1) (Nat.lt_of_le_of_lt (Nat.sub_le _ _) t.isLt)).2.2 := by
  rw [outsAt1_B V c t h0]
  unfold out1_B_4 out1_B_5 out1_B_6
  rw [View.read_writes_eq_canon _ _ _ fun y => cover1_B_4 (y := y) ..,
    View.read_writes_eq_canon _ _ _ fun y => cover1_B_5 (y := y) ..,
    View.read_writes_eq_canon _ _ _ fun y => cover1_B_6 (y := y) ..]
  unfold kernelRun1_B
  dsimp only
  sl_unfold_words
  simp only [View.canon_cons_unit_zero (S := S5000x128) comb_hz, View.canon_cons_unit_zero (S := S1x128) comb_hz, View.readAt_eq_ld,
    (hs1_0 t).read_unread, (hs1_1 t).read_unread, (hs1_2 t).read_unread, (hs1_3 t).read_unread, (hs1_5 t).read_unread, (hs1_6 t).read_unread,
    View.readCov_unit_zero (S := S1x128) _ comb_hz, View.ld_unit_zero (S := S5000x128) comb_hz, View.ld_unit_zero (S := S5000x1) comb_hz,
    View.ld_unit_zero (S := S1x128) comb_hz]
  rfl

-- The one block of row arrays 5 and 6 is the whole row.
theorem comb1_emb_row (t : Fin cfg1.N) (y : S1x128.Idx) :
    ((cfg1.win 5).blk t).view.emb y = y ∧ ((cfg1.win 6).blk t).view.emb y = y := by
  obtain ⟨-, -, -, -, -, ⟨h50, h51⟩, h60, h61⟩ := comb1_idx t
  exact ⟨(comb_ix2_eq
      (show win1_5.index t (0 : Fin 2) * 1 + 1 * (y 0).val = (y 0).val by rw [h50]; omega)
      (show win1_5.index t (1 : Fin 2) * 128 + 1 * (y 1).val = (y 1).val by rw [h51]; omega)).trans (eq_ix2 y).symm,
    (comb_ix2_eq
      (show win1_6.index t (0 : Fin 2) * 1 + 1 * (y 0).val = (y 0).val by rw [h60]; omega)
      (show win1_6.index t (1 : Fin 2) * 128 + 1 * (y 1).val = (y 1).val by rw [h61]; omega)).trans (eq_ix2 y).symm⟩

theorem comb1_row_read (t : Fin cfg1.N) (G : Vec Ideal S1x128 .f32) :
    (cfg1.win 5).cut (grid1.coords t) G = ((cfg1.win 5).blk t).view.read (Elt Ideal) G
      ∧ (cfg1.win 6).cut (grid1.coords t) G = ((cfg1.win 6).blk t).view.read (Elt Ideal) G :=
  ⟨funext fun y => by rw [View.read_apply, (comb1_emb_row t y).1]; rfl,
    funext fun y => by rw [View.read_apply, (comb1_emb_row t y).2]; rfl⟩

-- Every row lies in the block of the point numbered row / 5000.
theorem comb1_cover4 (i : S50000x128.Idx) :
    ∃ t : Fin cfg1.N, (cfg1.win 4).flush t = true ∧ i ∈ ((cfg1.win 4).blk t).view.set := by
  have h0 : (i 0).val < 50000 := (i 0).isLt
  obtain ⟨t, ht⟩ : ∃ t : Fin cfg1.N, t.val = (i 0).val / 5000 :=
    ⟨⟨(i 0).val / 5000, by rw [show cfg1.N = 10 from N_1]; omega⟩, rfl⟩
  obtain ⟨r, hr⟩ : ∃ r : Fin 5000, r.val = (i 0).val % 5000 := ⟨⟨_, Nat.mod_lt _ (by decide)⟩, rfl⟩
  have h : 5000 * t.val + r.val < 50000 := by omega
  have hm := ((cfg1.win 4).blk t).view.emb_mem_set (ix2 r (i 1))
  rw [(comb1_emb t r (i 1) h).2.2.2.2, ← comb_ix2_eq (i := i) (p := ⟨_, h⟩) (q := i 1) (by dsimp only; omega) rfl] at hm
  exact ⟨t, flush1_4 t, hm⟩

-- Point t's block of the activation array holds block t of the activated convolution.
theorem comb1_flushed4 (c : Dev nD) (t : Fin cfg1.N) :
    (dat1 V c).flushed 4 t = ((cfg1.win 4).blk t).view.read (Elt Ideal) (eOf1 V c) := by
  show (cfg1.win 4).cut (grid1.coords t) ((dat1 V c).after 4 t) = _
  rw [after1_4, comb_e N_1 (comb1_pay4_blk V c) (comb1_hA V c) (comb1_hB V c) t]
  funext y
  obtain ⟨r, d, rfl⟩ : ∃ (r : Fin 5000) (d : Fin 128), y = ix2 r d := ⟨y 0, y 1, eq_ix2 y⟩
  have h : 5000 * t.val + r.val < 50000 := by
    have := lt_of_lt_of_eq t.isLt (show cfg1.N = 10 from N_1); have := r.isLt; omega
  rw [View.read_apply, (comb1_emb t r d h).2.2.2.2]
  exact comb1_pay4_blk V c t r d h

-- At the last point each row array holds the totals over all 50000 rows.
theorem comb1_flushed5 (c : Dev nD) (t : Fin cfg1.N) (hf : (cfg1.win 5).flush t = true) :
    (dat1 V c).flushed 5 t = ((cfg1.win 5).blk t).view.read (Elt Ideal) (fun j : S1x128.Idx => Gcn.colSum (eOf1 V c) (j 1)) := by
  show (cfg1.win 5).cut (grid1.coords t) ((dat1 V c).after 5 t) = _
  rw [after1_5, comb_s N_1 (comb1_pay4_blk V c) (comb1_hA V c) (comb1_hB V c) t ((flush1_5 t).mp hf)]
  exact (comb1_row_read t _).1

theorem comb1_flushed6 (c : Dev nD) (t : Fin cfg1.N) (hf : (cfg1.win 6).flush t = true) :
    (dat1 V c).flushed 6 t = ((cfg1.win 6).blk t).view.read (Elt Ideal) (fun j : S1x128.Idx => Gcn.colSum (fun i => eOf1 V c i * eOf1 V c i) (j 1)) := by
  show (cfg1.win 6).cut (grid1.coords t) ((dat1 V c).after 6 t) = _
  rw [after1_6, comb_q N_1 (comb1_pay4_blk V c) (comb1_hA V c) (comb1_hB V c) t ((flush1_6 t).mp hf)]
  exact (comb1_row_read t _).2

theorem comb_final1_e (c : Dev nD) : (dat1 (F := Ideal) V c).arrAt 4 cfg1.N = eOf1 V c :=
  (dat1 V c).arrAt_eq_of_cover 4 (eOf1 V c) (fun t _ => comb1_flushed4 V c t) comb1_cover4

theorem comb_final1_s (c : Dev nD) :
    (dat1 (F := Ideal) V c).arrAt 5 cfg1.N = fun j => Gcn.colSum (eOf1 V c) (j 1) :=
  (dat1 V c).arrAt_eq_of_cover 5 (fun j : S1x128.Idx => Gcn.colSum (eOf1 V c) (j 1)) (comb1_flushed5 V c)
    fun i => ⟨t1_9, (flush1_5 t1_9).mpr rfl, (comb1_emb_row t1_9 i).1 ▸ View.emb_mem_set _ i⟩

theorem comb_final1_q (c : Dev nD) :
    (dat1 (F := Ideal) V c).arrAt 6 cfg1.N = fun j => Gcn.colSum (fun i => eOf1 V c i * eOf1 V c i) (j 1) :=
  (dat1 V c).arrAt_eq_of_cover 6 (fun j : S1x128.Idx => Gcn.colSum (fun i => eOf1 V c i * eOf1 V c i) (j 1)) (comb1_flushed6 V c)
    fun i => ⟨t1_9, (flush1_6 t1_9).mpr rfl, (comb1_emb_row t1_9 i).2 ▸ View.emb_mem_set _ i⟩

end Cert.KernelIdeal.Val

end
-- ==== Proof.KReg2.lean ====
import proofs.«427771_j81243601371607_1_alg».proof.Proof.KRegRows

noncomputable section

namespace Cert.KernelIdeal.Val

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

theorem idx_facts2 : ∀ t : Fin cfg2.N, (win2_5.index t 0 = t.val ∧ win2_5.index t 1 = 0)
    ∧ win2_0.index t 0 = t.val ∧ win2_0.index t 1 = 0
    ∧ (cfg2.win 1).index t 0 = 0 ∧ (cfg2.win 1).index t 1 = 0 ∧ (cfg2.win 2).index t 0 = 0 ∧ (cfg2.win 2).index t 1 = 0
    ∧ (cfg2.win 3).index t 0 = 0 ∧ (cfg2.win 3).index t 1 = 0 ∧ (cfg2.win 4).index t 0 = 0 ∧ (cfg2.win 4).index t 1 = 0 :=
  (by decide +kernel : ∀ t : Fin grid2.N, _)

-- An entry of block t: the block's row against the four whole rows, read in the entry's column.
theorem pay2_apply (c : Dev nD) (t : Fin cfg2.N) (p : Fin 5000) (q : Fin 128) :
    k2_pay1 (iblk2 V c 0 t) (iblk2 V c 1 t) (iblk2 V c 2 t) (iblk2 V c 3 t) (iblk2 V c 4 t) (ix2 p q)
      = Gcn.bnorm (V c (Pipeline.arrRef spec2 0)) (fun d => V c (Pipeline.arrRef spec2 1) (ix2 0 d))
          (fun d => V c (Pipeline.arrRef spec2 2) (ix2 0 d)) (fun d => V c (Pipeline.arrRef spec2 3) (ix2 0 d))
          (fun d => V c (Pipeline.arrRef spec2 4) (ix2 0 d)) (((cfg2.win 5).blk t).view.emb (ix2 p q)) := by
  obtain ⟨⟨e50, e51⟩, e00, e01, e10, e11, e20, e21, e30, e31, e40, e41⟩ := idx_facts2 t
  refine bnEntry _ _ _ _ _ p q ?_ ?_ ?_ ?_ ?_
  · exact congrArg (V c _) (Shape.idx_ext₂ (by show win2_0.index t 0 * 5000 + 1 * p.val = win2_5.index t 0 * 5000 + 1 * p.val; omega) (by show win2_0.index t 1 * 128 + 1 * q.val = win2_5.index t 1 * 128 + 1 * q.val; omega))
  all_goals exact congrArg (V c _) (Shape.idx_ext₂ (by show _ * 1 + 1 * 0 = 0; omega)
    (by show _ * 128 + 1 * q.val = win2_5.index t 1 * 128 + 1 * q.val; omega))

theorem flushed2_eq (c : Dev nD) (t : Fin cfg2.N) :
    (dat2 (F := Ideal) V c).flushed 5 t = ((cfg2.win 5).blk t).view.read (Elt Ideal)
      (Gcn.bnorm (V c (Pipeline.arrRef spec2 0)) (fun d => V c (Pipeline.arrRef spec2 1) (ix2 0 d))
          (fun d => V c (Pipeline.arrRef spec2 2) (ix2 0 d)) (fun d => V c (Pipeline.arrRef spec2 3) (ix2 0 d))
          (fun d => V c (Pipeline.arrRef spec2 4) (ix2 0 d))) := by
  show (cfg2.win 5).cut (grid2.coords t) ((dat2 V c).after 5 t) = _
  rw [after2_5]
  unfold out2_5
  rw [View.canon_unit_zero zeroOff]
  simp only [View.ld_unit_zero (S := S5000x128) zeroOff, View.ld_unit_zero (S := S1x128) zeroOff]
  funext j
  obtain ⟨p, q, rfl⟩ : ∃ (p : Fin 5000) (q : Fin 128), j = ix2 p q := ⟨j 0, j 1, eq_ix2 j⟩
  exact pay2_apply V c t p q

theorem norm_final2 (c : Dev nD) :
    (dat2 (F := Ideal) V c).arrAt 5 cfg2.N
      = Gcn.bnorm (V c (Pipeline.arrRef spec2 0)) (fun d => V c (Pipeline.arrRef spec2 1) (ix2 0 d))
          (fun d => V c (Pipeline.arrRef spec2 2) (ix2 0 d)) (fun d => V c (Pipeline.arrRef spec2 3) (ix2 0 d))
          (fun d => V c (Pipeline.arrRef spec2 4) (ix2 0 d)) :=
  (dat2 (F := Ideal) V c).arrAt_eq_of_cover 5 _ (fun t _ => flushed2_eq V c t) fun i => by
    obtain ⟨t, h⟩ := rowCover win2_5.index N_2 (fun t => (idx_facts2 t).1) i
    refine ⟨t, flush2_5 t, ?_⟩
    show i ∈ ((View.whole (Pipeline.arrRef spec2 5)).slice (win2_5.rect t)).set
    rw [View.set_slice_whole, Rect.mem_set_unit]
    exact h

end Cert.KernelIdeal.Val

end
-- ==== Proof.KReg9.lean ====
import proofs.«427771_j81243601371607_1_alg».proof.Proof.KRegRows

noncomputable section

namespace Cert.KernelIdeal.Val

open Idealize.ShloMosaic Idealize.ShloMosaic.TcCoe Idealize.ShloMosaic.ValueIdx Idealize.SL.Sem Cert.KernelIdeal Cert.KernelIdeal.Gen

section Pieces

variable {F : FTy → Type} [FloatOps F]

theorem pool_out_B (c : Dev nD) (i : grid9.Coords) (a1 : Memref sig .tc .vmem S5000x128 .bf16) (h1 : a1.IsWhole)
    (a2 : Memref sig .tc .vmem S5000x128 .f32) (h2 : a2.IsWhole) (a3 : Memref sig .tc .vmem S128x128 .f32) (h3 : a3.IsWhole)
    (hc : ¬cond9_0 i) (x0 : Vec F S5000x128 .bf16) (x1 : Vec F S5000x128 .f32) (xo : Vec F S128x128 .f32) :
    out9_B_2 c i a1 h1 a2 h2 a3 h3 hc x0 x1 xo = k9_pay2 x0 x1 xo := by
  unfold out9_B_2
  rw [View.read_writes_eq_canon _ _ _ (cover9_B_2 c i a1 h1 a2 h2 a3 h3 hc x0 x1 xo)]
  unfold kernelRun9_B
  dsimp only
  sl_unfold_words
  rw [View.canon_unit_zero zeroOff]
  simp only [View.readAt_eq_ld, h1.read_unread, h2.read_unread, h3.read_unread, View.ld_unit_zero (S := S5000x128) zeroOff,
    View.ld_unit_zero (S := S128x128) zeroOff]

theorem pool_out_A (c : Dev nD) (i : grid9.Coords) (a1 : Memref sig .tc .vmem S5000x128 .bf16) (h1 : a1.IsWhole)
    (a2 : Memref sig .tc .vmem S5000x128 .f32) (h2 : a2.IsWhole) (a3 : Memref sig .tc .vmem S128x128 .f32) (h3 : a3.IsWhole)
    (hc : cond9_0 i) (x0 : Vec F S5000x128 .bf16) (x1 : Vec F S5000x128 .f32) :
    out9_A_2 c i a1 h1 a2 h2 a3 h3 hc x0 x1 = k9_pay2 x0 x1 (k9_pay1 (F := F)) := by
  unfold out9_A_2
  rw [View.read_writes_eq_canon _ _ _ (cover9_A_2 c i a1 h1 a2 h2 a3 h3 hc x0 x1)]
  unfold kernelRun9_A
  dsimp only
  sl_unfold_words
  rw [View.canon_cons_unit_zero (S := S128x128) zeroOff, View.readCov_unit_zero (S := S128x128) _ zeroOff]
  simp only [View.readAt_eq_ld, h1.read_unread, h2.read_unread, View.ld_unit_zero (S := S5000x128) zeroOff]

end Pieces

theorem pool_matmul (A B : FVec Ideal S5000x128 .bf16) (g d : Fin 128) :
    matmul dot_S5000x128_S5000x128_S128x128_0_0_1_1_n_n none A B (constant S128x128 .f32 0x00000000#32) (ix2 g d)
      = ∑ r : Fin 5000, A (ix2 r g) * B (ix2 r d) := by
  show FloatOps.matmul _ none A B (constant S128x128 .f32 0x00000000#32) (ix2 g d) = _
  rw [Ideal.matmul_constant_zero_apply,
    ← Equiv.sum_comp (contrEquiv1 dot_S5000x128_S5000x128_S128x128_0_0_1_1_n_n 5000 rfl rfl).symm]
  refine Finset.sum_congr rfl fun r _ => ?_
  have cr := contrEquiv1_symm_val dot_S5000x128_S5000x128_S128x128_0_0_1_1_n_n 5000 rfl rfl r
  have l : dot_S5000x128_S5000x128_S128x128_0_0_1_1_n_n.lhsIdx (ix2 g d)
      ((contrEquiv1 dot_S5000x128_S5000x128_S128x128_0_0_1_1_n_n 5000 rfl rfl).symm r) = ix2 r g :=
    Shape.idx_ext₂ cr rfl
  have rr : dot_S5000x128_S5000x128_S128x128_0_0_1_1_n_n.rhsIdx (ix2 g d)
      ((contrEquiv1 dot_S5000x128_S5000x128_S128x128_0_0_1_1_n_n 5000 rfl rfl).symm r) = ix2 r d :=
    Shape.idx_ext₂ cr rfl
  rw [l, rr]

theorem pool_pay2_apply (oh : Vec Ideal S5000x128 .bf16) (x : Vec Ideal S5000x128 .f32) (acc : Vec Ideal S128x128 .f32)
    (g d : Fin 128) :
    k9_pay2 (F := Ideal) oh x acc (ix2 g d) = acc (ix2 g d) + ∑ r : Fin 5000, oh (ix2 r g) * x (ix2 r d) := by
  unfold k9_pay2
  simp only [shapeCast_self]
  refine (addf_apply _ _ _).trans ?_
  refine congrArg (acc (ix2 g d) + ·) ?_
  exact pool_matmul oh (truncf .bf16 x bitsLt_bf16_f32) g d

theorem pool_pay1_apply (g d : Fin 128) : k9_pay1 (F := Ideal) (ix2 g d) = 0 := by
  unfold k9_pay1
  exact Ideal.ofBits_zero_f32

variable (V : (c : Dev nD) → (b : Ref sig .tc) → Buf (Elt Ideal) ((c : Thread nD τ).loc b))

abbrev poolOh (c : Dev nD) : Gcn.Mat := V c (Pipeline.arrRef spec9 0)
abbrev poolX (c : Dev nD) : Gcn.Mat := V c (Pipeline.arrRef spec9 1)
abbrev poolOhBlk (c : Dev nD) (t : Fin cfg9.N) : Vec Ideal S5000x128 .bf16 := iblk9 V c 0 t
abbrev poolXBlk (c : Dev nD) (t : Fin cfg9.N) : Vec Ideal S5000x128 .f32 := iblk9 V c 1 t

theorem pool_idx : ∀ t : Fin cfg9.N, (win9_0.index t 0 = t.val ∧ win9_0.index t 1 = 0)
    ∧ (win9_1.index t 0 = t.val ∧ win9_1.index t 1 = 0) :=
  (by decide +kernel : ∀ t : Fin grid9.N, (win9_0.index t 0 = t.val ∧ win9_0.index t 1 = 0)
    ∧ (win9_1.index t 0 = t.val ∧ win9_1.index t 1 = 0))

theorem poolOhBlk_apply (c : Dev nD) (t : Fin cfg9.N) (r : Fin 5000) (g : Fin 128) (hb : 5000 * t.val + r.val < 50000) :
    poolOhBlk V c t (ix2 r g) = poolOh V c (ix2 ⟨5000 * t.val + r.val, hb⟩ g) := by
  exact congrArg (V c _) (Shape.idx_ext₂
    (by show win9_0.index t 0 * 5000 + 1 * r.val = 5000 * t.val + r.val; rw [(pool_idx t).1.1]; omega)
    (by show win9_0.index t 1 * 128 + 1 * g.val = g.val; rw [(pool_idx t).1.2]; omega))

theorem poolXBlk_apply (c : Dev nD) (t : Fin cfg9.N) (r : Fin 5000) (d : Fin 128) (hb : 5000 * t.val + r.val < 50000) :
    poolXBlk V c t (ix2 r d) = poolX V c (ix2 ⟨5000 * t.val + r.val, hb⟩ d) := by
  exact congrArg (V c _) (Shape.idx_ext₂
    (by show win9_1.index t 0 * 5000 + 1 * r.val = 5000 * t.val + r.val; rw [(pool_idx t).2.1]; omega)
    (by show win9_1.index t 1 * 128 + 1 * d.val = d.val; rw [(pool_idx t).2.2]; omega))

def poolTerm (oh x : Gcn.Mat) (g d : Fin 128) (m : ℕ) : EReal :=
  if h : m < 50000 then oh (ix2 ⟨m, h⟩ g) * x (ix2 ⟨m, h⟩ d) else 0

theorem pool_blk_sum (c : Dev nD) (t : Fin cfg9.N) (g d : Fin 128) :
    ∑ r : Fin 5000, poolOhBlk V c t (ix2 r g) * poolXBlk V c t (ix2 r d)
      = ∑ k ∈ Finset.range 5000, poolTerm (poolOh V c) (poolX V c) g d (5000 * t.val + k) := by
  have hN : cfg9.N = 10 := N_9
  rw [Finset.sum_range]
  refine Finset.sum_congr rfl fun r _ => ?_
  have hb : 5000 * t.val + r.val < 50000 := by have := t.isLt; have := r.isLt; omega
  rw [poolOhBlk_apply V c t r g hb, poolXBlk_apply V c t r d hb]
  unfold poolTerm
  rw [dif_pos hb]

theorem pool_outsAt (c : Dev nD) : ∀ (n : ℕ) (h : n < cfg9.N) (g d : Fin 128),
    (outsAt9 V c n h (ix2 g d) : EReal) = ∑ m ∈ Finset.range (5000 * (n + 1)), poolTerm (poolOh V c) (poolX V c) g d m
  | 0, h, g, d => by
    rw [outsAt9_A V c ⟨0, h⟩ rfl,
      pool_out_A (F := Ideal) c (grid9.coords ⟨0, h⟩) (ms9_0 ⟨0, h⟩) (hs9_0 ⟨0, h⟩) (ms9_1 ⟨0, h⟩) (hs9_1 ⟨0, h⟩) (ms9_2 ⟨0, h⟩)
        (hs9_2 ⟨0, h⟩) ((hcond9_0 ⟨0, h⟩).mpr rfl) (poolOhBlk V c ⟨0, h⟩) (poolXBlk V c ⟨0, h⟩)]
    refine (pool_pay2_apply (poolOhBlk V c ⟨0, h⟩) (poolXBlk V c ⟨0, h⟩) (k9_pay1 (F := Ideal)) g d).trans ?_
    rw [pool_pay1_apply, zero_add, pool_blk_sum V c ⟨0, h⟩ g d]
    refine Finset.sum_congr rfl fun k _ => ?_
    show poolTerm _ _ g d (5000 * 0 + k) = _
    rw [Nat.mul_zero, Nat.zero_add]
  | n + 1, h, g, d => by
    have hN : cfg9.N = 10 := N_9
    have hB : ¬(⟨n + 1, h⟩ : Fin cfg9.N).val % 10 = 0 := by dsimp only; omega
    rw [outsAt9_B V c ⟨n + 1, h⟩ hB]
    refine (congrFun (pool_out_B (F := Ideal) c (grid9.coords ⟨n + 1, h⟩) (ms9_0 ⟨n + 1, h⟩) (hs9_0 ⟨n + 1, h⟩) (ms9_1 ⟨n + 1, h⟩)
      (hs9_1 ⟨n + 1, h⟩) (ms9_2 ⟨n + 1, h⟩) (hs9_2 ⟨n + 1, h⟩) (fun hh => hB ((hcond9_0 ⟨n + 1, h⟩).mp hh)) (poolOhBlk V c ⟨n + 1, h⟩)
      (poolXBlk V c ⟨n + 1, h⟩) (outsAt9 V c n (Nat.lt_of_succ_lt h))) (ix2 g d)).trans ?_
    refine (pool_pay2_apply (poolOhBlk V c ⟨n + 1, h⟩) (poolXBlk V c ⟨n + 1, h⟩) (outsAt9 V c n (Nat.lt_of_succ_lt h)) g d).trans ?_
    rw [pool_outsAt c n (Nat.lt_of_succ_lt h) g d, pool_blk_sum V c ⟨n + 1, h⟩ g d,
      show 5000 * (n + 1 + 1) = 5000 * (n + 1) + 5000 from by omega, Finset.sum_range_add]

theorem pool_last (c : Dev nD) (n : ℕ) (h : n < cfg9.N) (hn : n = 9) :
    outsAt9 V c n h = Gcn.poolSumK (poolOh V c) (poolX V c) := by
  subst hn
  funext j
  obtain ⟨g, d, rfl⟩ : ∃ (g d : Fin 128), j = ix2 g d := ⟨j 0, j 1, eq_ix2 j⟩
  refine (pool_outsAt V c 9 h g d).trans ?_
  show ∑ m ∈ Finset.range 50000, poolTerm (poolOh V c) (poolX V c) g d m = ∑ n : Fin 50000, _
  rw [Finset.sum_range]
  refine Finset.sum_congr rfl fun m _ => ?_
  unfold poolTerm
  rw [dif_pos m.isLt]

theorem pool_flushed (c : Dev nD) (t : Fin cfg9.N) (hf : (cfg9.win 2).flush t = true) :
    (dat9 (F := Ideal) V c).flushed 2 t
      = ((cfg9.win 2).blk t).view.read (Elt Ideal) (Gcn.poolSumK (poolOh V c) (poolX V c)) := by
  have hN : cfg9.N = 10 := N_9
  have h9 : t.val = 9 := by have := (flush9_2 t).mp hf; have := t.isLt; omega
  show (cfg9.win 2).cut (grid9.coords t) ((dat9 V c).after 2 t) = _
  rw [after9_2, pool_last V c t.val t.isLt h9]
  obtain rfl : t = t9_9 := Fin.ext h9
  have hz' : (fun a => win9_2.index t9_9 a * main_v146.ty.shape.size a) = fun _ => 0 :=
    funext fun a => by fin_cases a <;> decide
  exact (Memref.read_access_unit_zero (Elt Ideal) main_v146 hz' (fun a => by rw [congrFun hz' a]; simp)
    (Gcn.poolSumK (poolOh V c) (poolX V c))).symm

theorem pool_final9 (c : Dev nD) :
    (dat9 (F := Ideal) V c).arrAt 2 cfg9.N
      = Gcn.poolSumK (V c (Pipeline.arrRef spec9 0)) (V c (Pipeline.arrRef spec9 1)) :=
  (dat9 (F := Ideal) V c).arrAt_eq_of_cover 2 (Gcn.poolSumK (poolOh V c) (poolX V c)) (pool_flushed V c) fun i =>
    ⟨t9_9, (flush9_2 t9_9).mpr rfl, (Shape.idx_ext₂
      (by show win9_2.index t9_9 0 * 128 + 1 * (i 0).val = (i 0).val
          rw [show win9_2.index t9_9 0 = 0 from by decide +kernel]; omega)
      (by show win9_2.index t9_9 1 * 128 + 1 * (i 1).val = (i 1).val
          rw [show win9_2.index t9_9 1 = 0 from by decide +kernel]; omega) :
      ((cfg9.win 2).blk t9_9).view.emb i = i) ▸ View.emb_mem_set _ i⟩

end Cert.KernelIdeal.Val

end
-- ==== Proof.KReg10.lean ====
import proofs.«427771_j81243601371607_1_alg».proof.Proof.KRegRows

noncomputable section

namespace Cert.KernelIdeal.Val

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

namespace Head10

theorem mm_sq_at (A B : FVec Ideal S128x128 .bf16) (a b : Fin 128) :
    matmul dot_S128x128_S128x128_S128x128_1_0_0_1_n_n none A B (constant (F := Ideal) S128x128 .f32 0x00000000#32) (ix2 a b)
      = ∑ k : Fin 128, A (ix2 a k) * B (ix2 k b) :=
  (congrFun (matmul_zero_eq_dotGeneral _ none _ _) _).trans (StackMember.dotGeneral_plain_apply none _ _ a b)

theorem mm_cl_at (A : FVec Ideal S128x128 .bf16) (B : FVec Ideal S128x2 .bf16) (a : Fin 128) (b : Fin 2) :
    matmul dot_S128x128_S128x2_S128x2_1_0_0_1_n_n none A B (constant (F := Ideal) S128x2 .f32 0x00000000#32) (ix2 a b)
      = ∑ k : Fin 128, A (ix2 a k) * B (ix2 k b) :=
  (congrFun (matmul_zero_eq_dotGeneral _ none _ _) _).trans (StackMember.dotGeneral_plain_apply none _ _ a b)

theorem col_of_vec_at {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

theorem spread_col_at {α : Type} {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

theorem lift_row (h : S128x2.Reduces [1] S128) (g : Fin 128) (k : Fin 2) : h.lift (ix1 g) k = ix2 g k := by
  funext c
  match c with
  | ⟨0, _⟩ => exact Fin.ext rfl
  | ⟨1, _⟩ => exact Fin.ext rfl

theorem negInf_eq_bot : Ideal.ofBits .f32 0xFF800000#32 = (⊥ : EReal) := by
  simp [Ideal.ofBits, Ideal.ieee]

theorem fold_max_two (f : Fin 2 → EReal) : (Finset.univ : Finset (Fin 2)).fold max ⊥ f = max (f 0) (f 1) := by
  rw [show (Finset.univ : Finset (Fin 2)) = insert 0 {1} from by decide, Finset.fold_insert (by decide),
    Finset.fold_singleton, max_bot_right]

theorem rowMax_at (L : FVec Ideal S128x2 .f32) (g : Fin 128) :
    multiReduction .maximumf [1] S128 L 0xFF800000#32 reduces_S128x2_S128 (.inl rfl) rfl (ix1 g)
      = max (L (ix2 g 0)) (L (ix2 g 1)) := by
  refine (Ideal.multiReduction_maximumf_single L 0xFF800000#32 reduces_S128x2_S128 (.inl rfl) rfl (ix1 g)).trans ?_
  show (Finset.univ : Finset (Fin 2)).fold max (Ideal.ofBits .f32 0xFF800000#32)
    (fun k : Fin 2 => L (reduces_S128x2_S128.lift (ix1 g) k)) = _
  rw [negInf_eq_bot, fold_max_two, lift_row, lift_row]

theorem rowSum_at (E : FVec Ideal S128x2 .f32) (g : Fin 128) :
    multiReduction .add [1] S128 E 0x00000000#32 reduces_S128x2_S128 (.inl rfl) rfl (ix1 g)
      = E (ix2 g 0) + E (ix2 g 1) := by
  refine (Ideal.multiReduction_add_single E 0x00000000#32 reduces_S128x2_S128 (.inl rfl) rfl (ix1 g)).trans ?_
  show ∑ k : Fin 2, E (reduces_S128x2_S128.lift (ix1 g) k) = _
  rw [Fin.sum_univ_two, lift_row, lift_row]

def hidK (x0 x1 : Vec Ideal S128x128 .f32) (x2 : Vec Ideal S1x128 .f32) : FVec Ideal S128x128 .f32 :=
  maximumf
    (addf
      (matmul dot_S128x128_S128x128_S128x128_1_0_0_1_n_n none
        (truncf .bf16 (shapeCast S128x128 x0 shapeCasts_S128x128_S128x128) bitsLt_bf16_f32) (truncf .bf16 x1 bitsLt_bf16_f32)
        (constant S128x128 .f32 0x00000000#32))
      (broadcastTo S128x128 (shapeCast S1x128 x2 shapeCasts_S1x128_S1x128) broadcasts_S1x128_S128x128))
    (broadcast S128x128 (Scalar.ofBits .f32 0x00000000#32))

def logitK (H : FVec Ideal S128x128 .f32) (x3 : Vec Ideal S128x2 .f32) (x4 : Vec Ideal S1x2 .f32) : FVec Ideal S128x2 .f32 :=
  addf
    (matmul dot_S128x128_S128x2_S128x2_1_0_0_1_n_n none (truncf .bf16 H bitsLt_bf16_f32) (truncf .bf16 x3 bitsLt_bf16_f32)
      (constant S128x2 .f32 0x00000000#32))
    (broadcastTo S128x2 (shapeCast S1x2 x4 shapeCasts_S1x2_S1x2) broadcasts_S1x2_S128x2)

def rowMaxK (L : FVec Ideal S128x2 .f32) : FVec Ideal S128x2 .f32 :=
  broadcastTo S128x2
    (shapeCast S128x1 (multiReduction .maximumf [1] S128 L 0xFF800000#32 reduces_S128x2_S128 (.inl rfl) rfl) shapeCasts_S128_S128x1)
    broadcasts_S128x1_S128x2

def rowLseK (Z : FVec Ideal S128x2 .f32) : FVec Ideal S128x2 .f32 :=
  broadcastTo S128x2
    (log (shapeCast S128x1 (multiReduction .add [1] S128 (exp Z) 0x00000000#32 reduces_S128x2_S128 (.inl rfl) rfl) shapeCasts_S128_S128x1))
    broadcasts_S128x1_S128x2

theorem pay10_eq (x0 x1 : Vec Ideal S128x128 .f32) (x2 : Vec Ideal S1x128 .f32) (x3 : Vec Ideal S128x2 .f32) (x4 : Vec Ideal S1x2 .f32) :
    k10_pay1 (F := Ideal) x0 x1 x2 x3 x4
      = subf (subf (logitK (hidK x0 x1 x2) x3 x4) (rowMaxK (logitK (hidK x0 x1 x2) x3 x4)))
          (rowLseK (subf (logitK (hidK x0 x1 x2) x3 x4) (rowMaxK (logitK (hidK x0 x1 x2) x3 x4)))) := rfl

theorem hidK_at (x0 x1 : Vec Ideal S128x128 .f32) (x2 : Vec Ideal S1x128 .f32) (a b : Fin 128) :
    hidK x0 x1 x2 (ix2 a b) = max ((∑ k : Fin 128, x0 (ix2 a k) * x1 (ix2 k b)) + x2 (ix2 0 b)) Gcn.cZero := by
  unfold hidK
  rw [maximumf_apply, addf_apply, broadcast_apply, mm_sq_at, broadcastTo_1b_ab_apply, shapeCast_self]
  simp only [truncf_apply, shapeCast_self]
  rfl

theorem logitK_at (H : FVec Ideal S128x128 .f32) (x3 : Vec Ideal S128x2 .f32) (x4 : Vec Ideal S1x2 .f32) (a : Fin 128) (b : Fin 2) :
    logitK H x3 x4 (ix2 a b) = (∑ k : Fin 128, H (ix2 a k) * x3 (ix2 k b)) + x4 (ix2 0 b) := by
  unfold logitK
  rw [addf_apply, mm_cl_at, broadcastTo_1b_ab_apply, shapeCast_self]
  simp only [truncf_apply]

theorem rowMaxK_at (L : FVec Ideal S128x2 .f32) (g : Fin 128) (j : Fin 2) :
    rowMaxK L (ix2 g j) = max (L (ix2 g 0)) (L (ix2 g 1)) := by
  unfold rowMaxK
  rw [spread_col_at, col_of_vec_at, rowMax_at]

theorem rowLseK_at (Z : FVec Ideal S128x2 .f32) (g : Fin 128) (j : Fin 2) :
    rowLseK Z (ix2 g j) = Ideal.log (Ideal.exp (Z (ix2 g 0)) + Ideal.exp (Z (ix2 g 1))) := by
  unfold rowLseK
  rw [spread_col_at]
  show Ideal.log (shapeCast S128x1 _ shapeCasts_S128_S128x1 (ix2 g (0 : Fin 1))) = _
  rw [col_of_vec_at, rowSum_at]
  rfl

theorem pay10_at (x0 x1 : Vec Ideal S128x128 .f32) (x2 : Vec Ideal S1x128 .f32) (x3 : Vec Ideal S128x2 .f32) (x4 : Vec Ideal S1x2 .f32)
    (g : Fin 128) (j : Fin 2) :
    k10_pay1 (F := Ideal) x0 x1 x2 x3 x4 (ix2 g j)
      = Gcn.mlp x0 x1 (fun d => x2 (ix2 0 d)) x3 (fun d => x4 (ix2 0 d)) (ix2 g j) := by
  rw [pay10_eq]
  simp only [subf_apply, rowLseK_at, rowMaxK_at, logitK_at, hidK_at]
  rfl

theorem pay10_fun (x0 x1 : Vec Ideal S128x128 .f32) (x2 : Vec Ideal S1x128 .f32) (x3 : Vec Ideal S128x2 .f32) (x4 : Vec Ideal S1x2 .f32) :
    k10_pay1 (F := Ideal) x0 x1 x2 x3 x4 = Gcn.mlp x0 x1 (fun d => x2 (ix2 0 d)) x3 (fun d => x4 (ix2 0 d)) := by
  funext y
  obtain ⟨g, j, rfl⟩ : ∃ (g : Fin 128) (j : Fin 2), y = ix2 g j := ⟨y 0, y 1, eq_ix2 y⟩
  exact pay10_at x0 x1 x2 x3 x4 g j

theorem idx_facts10 : ∀ t : Fin cfg10.N,
    win10_0.index t (0 : Fin 2) = 0 ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0 :=
  (by decide +kernel : ∀ t : Fin grid10.N, _)

theorem iblk10_0_eq (c : Dev nD) (t : Fin cfg10.N) :
    (iblk10 (F := Ideal) V c 0 t : S128x128.Idx → EReal) = V c (Pipeline.arrRef spec10 0) := by
  obtain ⟨e0, e1, -⟩ := idx_facts10 t
  funext y
  exact congrArg (V c _) (Shape.idx_ext₂ (by show win10_0.index t (0 : Fin 2) * 128 + 1 * (y 0).val = (y 0).val; omega) (by show win10_0.index t (1 : Fin 2) * 128 + 1 * (y 1).val = (y 1).val; omega))

theorem iblk10_1_eq (c : Dev nD) (t : Fin cfg10.N) :
    (iblk10 (F := Ideal) V c 1 t : S128x128.Idx → EReal) = V c (Pipeline.arrRef spec10 1) := by
  obtain ⟨-, -, e0, e1, -⟩ := idx_facts10 t
  funext y
  exact congrArg (V c _) (Shape.idx_ext₂ (by show win10_1.index t (0 : Fin 2) * 128 + 1 * (y 0).val = (y 0).val; omega) (by show win10_1.index t (1 : Fin 2) * 128 + 1 * (y 1).val = (y 1).val; omega))

theorem iblk10_2_eq (c : Dev nD) (t : Fin cfg10.N) :
    (iblk10 (F := Ideal) V c 2 t : S1x128.Idx → EReal) = V c (Pipeline.arrRef spec10 2) := by
  obtain ⟨-, -, -, -, e0, e1, -⟩ := idx_facts10 t
  funext y
  exact congrArg (V c _) (Shape.idx_ext₂ (by show win10_2.index t (0 : Fin 2) * 1 + 1 * (y 0).val = (y 0).val; omega) (by show win10_2.index t (1 : Fin 2) * 128 + 1 * (y 1).val = (y 1).val; omega))

theorem iblk10_3_eq (c : Dev nD) (t : Fin cfg10.N) :
    (iblk10 (F := Ideal) V c 3 t : S128x2.Idx → EReal) = V c (Pipeline.arrRef spec10 3) := by
  obtain ⟨-, -, -, -, -, -, e0, e1, -⟩ := idx_facts10 t
  funext y
  exact congrArg (V c _) (Shape.idx_ext₂ (by show win10_3.index t (0 : Fin 2) * 128 + 1 * (y 0).val = (y 0).val; omega) (by show win10_3.index t (1 : Fin 2) * 2 + 1 * (y 1).val = (y 1).val; omega))

theorem iblk10_4_eq (c : Dev nD) (t : Fin cfg10.N) :
    (iblk10 (F := Ideal) V c 4 t : S1x2.Idx → EReal) = V c (Pipeline.arrRef spec10 4) := by
  obtain ⟨-, -, -, -, -, -, -, -, e0, e1, -⟩ := idx_facts10 t
  funext y
  exact congrArg (V c _) (Shape.idx_ext₂ (by show win10_4.index t (0 : Fin 2) * 1 + 1 * (y 0).val = (y 0).val; omega) (by show win10_4.index t (1 : Fin 2) * 2 + 1 * (y 1).val = (y 1).val; omega))

theorem cut_eq_read10 (G : S128x2.Idx → EReal) (t : Fin cfg10.N) :
    (cfg10.win 5).cut (grid10.coords t) G = ((cfg10.win 5).blk t).view.read (Elt Ideal) G := by
  obtain ⟨-, -, -, -, -, -, -, -, -, -, e0, e1⟩ := idx_facts10 t
  funext y
  show G ((cfg10.win 5).xinj (grid10.coords t) y) = G (((cfg10.win 5).blk t).view.emb y)
  refine congrArg G (funext fun a => Fin.ext ?_)
  match a with
  | ⟨0, _⟩ => show (y 0).val = win10_5.index t (0 : Fin 2) * 128 + 1 * (y 0).val; rw [e0]; omega
  | ⟨1, _⟩ => show (y 1).val = win10_5.index t (1 : Fin 2) * 2 + 1 * (y 1).val; rw [e1]; omega

theorem flushed10_eq (c : Dev nD) (t : Fin cfg10.N) :
    (dat10 (F := Ideal) V c).flushed 5 t
      = ((cfg10.win 5).blk t).view.read (Elt Ideal)
          (Gcn.mlp (V c (Pipeline.arrRef spec10 0)) (V c (Pipeline.arrRef spec10 1))
            (fun d => V c (Pipeline.arrRef spec10 2) (ix2 0 d)) (V c (Pipeline.arrRef spec10 3))
            (fun d => V c (Pipeline.arrRef spec10 4) (ix2 0 d))) := by
  show (cfg10.win 5).cut (grid10.coords t) ((dat10 (F := Ideal) V c).after 5 t) = _
  rw [after10_5]
  unfold out10_5
  rw [View.canon_unit_zero zeroOff]
  simp only [View.ld_unit_zero (S := S128x128) zeroOff, View.ld_unit_zero (S := S1x128) zeroOff,
    View.ld_unit_zero (S := S128x2) zeroOff, View.ld_unit_zero (S := S1x2) zeroOff]
  rw [pay10_fun (iblk10 V c 0 t) (iblk10 V c 1 t) (iblk10 V c 2 t) (iblk10 V c 3 t) (iblk10 V c 4 t),
    iblk10_0_eq V c t, iblk10_1_eq V c t, iblk10_2_eq V c t, iblk10_3_eq V c t, iblk10_4_eq V c t]
  exact cut_eq_read10 _ t

end Head10

open Head10

theorem mlp_final10 (c : Dev nD) :
    (dat10 (F := Ideal) V c).arrAt 5 cfg10.N
      = Gcn.mlp (V c (Pipeline.arrRef spec10 0)) (V c (Pipeline.arrRef spec10 1))
          (fun d => V c (Pipeline.arrRef spec10 2) (ix2 0 d)) (V c (Pipeline.arrRef spec10 3))
          (fun d => V c (Pipeline.arrRef spec10 4) (ix2 0 d)) := by
  refine (dat10 (F := Ideal) V c).arrAt_eq_of_cover 5 _ (fun t _ => flushed10_eq V c t) fun i => ?_
  obtain ⟨-, -, -, -, -, -, -, -, -, -, e0, e1⟩ := idx_facts10 t10_0
  exact ⟨t10_0, flush10_5 t10_0, (Shape.idx_ext₂
    (by show win10_5.index t10_0 (0 : Fin 2) * 128 + 1 * (i 0).val = (i 0).val; omega)
    (by show win10_5.index t10_0 (1 : Fin 2) * 2 + 1 * (i 1).val = (i 1).val; omega) :
    ((cfg10.win 5).blk t10_0).view.emb i = i) ▸ View.emb_mem_set _ i⟩

end Cert.KernelIdeal.Val

end
-- ==== Proof.Prelude.lean ====
import proofs.«427771_j81243601371607_1_alg».proof.Proof.Gen.ReferenceIdeal
import proofs.«427771_j81243601371607_1_alg».proof.Proof.Spec

noncomputable section

namespace Cert.Gcn

open Idealize.ShloMosaic Idealize.ShloMosaic.ValueIdx Cert.ReferenceIdeal Cert.ReferenceIdeal.Facts₀

abbrev EI : Type := (⟨S2x800000, .i32⟩ : BufTy).Contents (Elt Ideal)
abbrev EV : Type := (⟨S800000, .i32⟩ : BufTy).Contents (Elt Ideal)

def srcW (ei : EI) : EV :=
  shapeCast S800000 (extractStridedSlice S1x800000 ![0, 0] ei slices_S2x800000_S1x800000_0_0) shapeCasts_S1x800000_S800000

def dstW (ei : EI) : EV :=
  shapeCast S800000 (extractStridedSlice S1x800000 ![1, 0] ei slices_S2x800000_S1x800000_1_0) shapeCasts_S1x800000_S800000

def wrapW (v : EV) : EV :=
  select (cmpi .slt v (broadcastInDim S800000 ![] bcast_S_S800000 (constantI S_ 32 0#32)))
    (addi v (broadcastInDim S800000 ![] bcast_S_S800000 (constantI S_ 32 50000#32))) v

def colW (v : EV) : (⟨S800000x1, .i32⟩ : BufTy).Contents (Elt Ideal) :=
  broadcastInDim S800000x1 ![0] bcast_S800000_S800000x1_0 v

def disOf (ei : EI) : (⟨S50000, .f32⟩ : BufTy).Contents (Elt Ideal) :=
  Host.powf (F := Ideal)
    (addf (F := Ideal) (φ := .f32) (Host.scatterAdd (F := Ideal) scatter_S50000_S800000x1_S800000_n_0_0_1
        (broadcastInDim S50000 ![] bcast_S_S50000 (constant (F := Ideal) S_ .f32 0x00000000#32)) (colW (dstW ei))
        (broadcastInDim S800000 ![] bcast_S_S800000 (constant (F := Ideal) S_ .f32 0x3F800000#32)))
      (broadcastInDim S50000 ![] bcast_S_S50000 (constant (F := Ideal) S_ .f32 0x3F800000#32)))
    (broadcastInDim S50000 ![] bcast_S_S50000 (constant (F := Ideal) S_ .f32 0xBF000000#32))

def normOf (ei : EI) : (⟨S800000, .f32⟩ : BufTy).Contents (Elt Ideal) :=
  mulf (F := Ideal) (φ := .f32) (Host.gather gather_S50000_S800000x1_S800000_n_0_n_n_0_1_1 (disOf ei) (colW (wrapW (srcW ei))))
    (Host.gather gather_S50000_S800000x1_S800000_n_0_n_n_0_1_1 (disOf ei) (colW (wrapW (dstW ei))))

def snCol (ei : EI) : (⟨S50000x1, .f32⟩ : BufTy).Contents (Elt Ideal) :=
  broadcastInDim S50000x1 ![0] bcast_S50000_S50000x1_0 (mulf (F := Ideal) (φ := .f32) (disOf ei) (disOf ei))

def snOf (ei : EI) : Fin 50000 → EReal := fun n => snCol ei (ix2 n 0)

def aggFrom (src dst : EV) (norm : (⟨S800000, .f32⟩ : BufTy).Contents (Elt Ideal)) (h : Mat) : Mat :=
  Host.scatterAdd (F := Ideal) scatter_S50000x128_S800000x1_S800000x128_1_0_0_1
    (broadcastInDim S50000x128 ![] bcast_S_S50000x128 (constant (F := Ideal) S_ .f32 0x00000000#32)) (colW dst)
    (mulf (F := Ideal) (φ := .f32) (Host.gather gather_S50000x128_S800000x1_S800000x128_1_0_n_n_0_1_1128 h (colW (wrapW src)))
      (broadcastInDim S800000x128 ![0, 1] bcast_S800000x1_S800000x128_0_1
        (broadcastInDim S800000x1 ![0] bcast_S800000_S800000x1_0 norm)))

def aggOf (ei : EI) (h : Mat) : Mat := aggFrom (srcW ei) (dstW ei) (normOf ei) h

end Cert.Gcn

end
-- ==== Proof.KChainH.lean ====
import proofs.«427771_j81243601371607_1_alg».proof.Proof.KReg9
import proofs.«427771_j81243601371607_1_alg».proof.Proof.KReg10
import proofs.«427771_j81243601371607_1_alg».proof.Proof.Prelude
import Idealize.ShloMosaic.PureOps.Ideal
import Idealize.ShloMosaic.PureOps.Ideal.Laws
import Idealize.ShloMosaic.Lib.StableHlo.Run
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.IdealHost

set_option maxRecDepth 16384

noncomputable section

namespace Cert.KernelIdeal.Val

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

def Wr (W : List (Ref sig .tc)) (ops : List (HloOp τ sig (Elt Ideal))) : Prop :=
  ops.Forall fun op => op.writes ⊆ (W.map (Proc.devRef .tc)).toFinset

def HW0 : List (Ref sig .tc) := [main_v0, main_v1, main_v2, main_v3, main_cst, main_v4, main_cst_0, main_v5, main_v6, main_v7, main_cst_1, main_v8, main_v9, main_cst_2, main_v10, main_v11, main_c, main_v12, main_v13, main_c_3, main_v14, main_v15, main_v16, main_v17, main_v18, main_c_4, main_v19, main_v20, main_c_5, main_v21, main_v22, main_v23, main_v24, main_v25, main_v26, main_v27, main_v28, main_v29, main_v30]
def HW1 : List (Ref sig .tc) := [main_c_6, main_v32, main_v33, main_c_7, main_v34, main_v35, main_v36, main_v37, main_v38, main_v39, main_v40, main_v41, main_cst_8, main_v42, main_v43, main_v44, main_v45, main_v46, main_v47]
def HW2 : List (Ref sig .tc) := [main_cst_9, main_v49, main_v50, main_cst_10, main_v51, main_v52, main_v53, main_v54, main_cst_11, main_v55, main_v56, main_v57, main_v58, main_v59, main_v60, main_v61, main_v62, main_v63]
def HW3 : List (Ref sig .tc) := [main_v65, main_v66]
def HW4 : List (Ref sig .tc) := [main_c_12, main_v68, main_v69, main_c_13, main_v70, main_v71, main_v72, main_v73, main_v74, main_v75, main_v76, main_v77, main_cst_14, main_v78, main_v79, main_v80, main_v81, main_v82, main_v83]
def HW5 : List (Ref sig .tc) := [main_cst_15, main_v85, main_v86, main_cst_16, main_v87, main_v88, main_v89, main_v90, main_cst_17, main_v91, main_v92, main_v93, main_v94, main_v95, main_v96, main_v97, main_v98, main_v99]
def HW6 : List (Ref sig .tc) := [main_v101, main_v102]
def HW7 : List (Ref sig .tc) := [main_c_18, main_v104, main_v105, main_c_19, main_v106, main_v107, main_v108, main_v109, main_v110, main_v111, main_v112, main_v113, main_cst_20, main_v114, main_v115, main_v116, main_v117, main_v118, main_v119]
def HW8 : List (Ref sig .tc) := [main_cst_21, main_v121, main_v122, main_cst_22, main_v123, main_v124, main_v125, main_v126, main_cst_23, main_v127, main_v128, main_v129, main_v130, main_v131, main_v132, main_v133, main_v134, main_v135]
def HW9 : List (Ref sig .tc) := [main_v137, main_v138, main_v139, main_v140, main_v141, main_v142, main_v143, main_v144, main_cst_24, main_v145]
def HW10 : List (Ref sig .tc) := [main_cst_25, main_v147, main_v148, main_v149, main_v150, main_v151, main_v152, main_v153]

-- Every operation writes exactly its result buffer, and each result buffer is in its stretch's list.
theorem hostW : Wr HW0 hostOps0 ∧ Wr HW1 hostOps1 ∧ Wr HW2 hostOps2 ∧ Wr HW3 hostOps3 ∧ Wr HW4 hostOps4 ∧ Wr HW5 hostOps5
    ∧ Wr HW6 hostOps6 ∧ Wr HW7 hostOps7 ∧ Wr HW8 hostOps8 ∧ Wr HW9 hostOps9 ∧ Wr HW10 hostOps10 := by
  simp only [Wr, hostOps0, hostOps1, hostOps2, hostOps3, hostOps4, hostOps5, hostOps6, hostOps7, hostOps8, hostOps9, hostOps10,
    List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

theorem step {L W : List (Ref sig .tc)} {ops : List (HloOp τ sig (Elt Ideal))} {gr n : Nat} {win : Fin n → Pipeline.WinSpec sig gr}
    (c : Dev nD) (hW : Wr W ops) (h : ∀ b ∈ L, b ∉ W ∧ ∀ w, Pipeline.arrRef win w ≠ b) (V A) (b : Ref sig .tc) (hb : b ∈ L) :
    Pipeline.withArrays win c (StableHlo.after ops V) A (Proc.devRef .tc b) = V (Proc.devRef .tc b) :=
  (Pipeline.withArrays_of_ne win c _ A b (h b hb).2).trans (StableHlo.after_of_writes_sub ops V hW (h b hb).1)

theorem w21_arg5 (c : Dev nD) : W21 m ρ c main_arg5 = m ((c : Thread nD τ).loc main_arg5) :=
  ((W22_arr m ρ c 1).trans (((dat10 (V21 m ρ) c).arrAt_in 1 rfl _).trans (A_eq10 (V21 m ρ) c 1))).symm.trans (W22_main_arg5 m ρ c)
theorem w21_arg7 (c : Dev nD) : W21 m ρ c main_arg7 = m ((c : Thread nD τ).loc main_arg7) :=
  ((W22_arr m ρ c 3).trans (((dat10 (V21 m ρ) c).arrAt_in 3 rfl _).trans (A_eq10 (V21 m ρ) c 3))).symm.trans (W22_main_arg7 m ρ c)
theorem w20_arg6 (c : Dev nD) : W20 m ρ c main_arg6 = m ((c : Thread nD τ).loc main_arg6) :=
  (step c hostW.2.2.2.2.2.2.2.2.2.2 (by decide) _ _ main_arg6 (List.mem_singleton_self _)).symm.trans (W22_main_arg6 m ρ c)
theorem w20_arg8 (c : Dev nD) : W20 m ρ c main_arg8 = m ((c : Thread nD τ).loc main_arg8) :=
  (step c hostW.2.2.2.2.2.2.2.2.2.2 (by decide) _ _ main_arg8 (List.mem_singleton_self _)).symm.trans (W22_main_arg8 m ρ c)
theorem w18_arg10 (c : Dev nD) : W18 m ρ c main_arg10 = m ((c : Thread nD τ).loc main_arg10) :=
  ((step c hostW.2.2.2.2.2.2.2.2.2.2 (by decide) _ _ main_arg10 (List.mem_singleton_self _)).trans (step c hostW.2.2.2.2.2.2.2.2.2.1 (by decide) _ _ main_arg10 (List.mem_singleton_self _))).symm.trans (W22_main_arg10 m ρ c)
theorem w19_v136 (c : Dev nD) : W19 m ρ c main_v136 = W18 m ρ c main_v136 :=
  StableHlo.after_of_writes_sub _ _ hostW.2.2.2.2.2.2.2.2.2.1 (by decide)

theorem bcast_col_apply {α : Type} (v : S50000.Idx → α) (n : Fin 50000) (g : Fin 128) :
    broadcastInDim S50000x128 ![0, 1] bcast_S50000x1_S50000x128_0_1 (broadcastInDim S50000x1 ![0] bcast_S50000_S50000x1_0 v) (ix2 n g)
      = v (ix1 n) := by
  rw [broadcastInDim_apply _ _ _ (ix2 n g) (ix2 n (0 : Fin 1)) (by intro a; match a with | ⟨0, _⟩ => rfl | ⟨1, _⟩ => rfl),
    broadcastInDim_apply _ _ _ (ix2 n (0 : Fin 1)) (ix1 n) (by intro a; match a with | ⟨0, _⟩ => rfl)]

theorem bcast_row_apply {α : Type} (v : S128.Idx → α) (n : Fin 50000) (g : Fin 128) :
    broadcastInDim S50000x128 ![0, 1] bcast_S1x128_S50000x128_0_1 (broadcastInDim S1x128 ![1] bcast_S128_S1x128_1 v) (ix2 n g)
      = v (ix1 g) := by
  rw [broadcastInDim_apply _ _ _ (ix2 n g) (ix2 (0 : Fin 1) g) (by intro a; match a with | ⟨0, _⟩ => rfl | ⟨1, _⟩ => rfl),
    broadcastInDim_apply _ _ _ (ix2 (0 : Fin 1) g) (ix1 g) (by intro a; match a with | ⟨0, _⟩ => rfl)]

theorem oh_term (b : S50000.Idx → BitVec 32) :
    uitofp (F := Ideal) .bf16 (cmpi .eq
      (broadcastInDim S50000x128 ![0, 1] bcast_S50000x1_S50000x128_0_1 (broadcastInDim S50000x1 ![0] bcast_S50000_S50000x1_0 b))
      (broadcastInDim S50000x128 ![0, 1] bcast_S1x128_S50000x128_0_1 (broadcastInDim S1x128 ![1] bcast_S128_S1x128_1 (iotaInDim S128 32 0))))
      = Gcn.ohOf (fun n => b (ix1 n)) := by
  funext i
  obtain ⟨n, g, rfl⟩ : ∃ (n : Fin 50000) (g : Fin 128), i = ix2 n g := ⟨i 0, i 1, eq_ix2 i⟩
  unfold uitofp cmpi Gcn.ohOf
  rw [bcast_col_apply, bcast_row_apply, iotaInDim_apply]
  show (((IntOp.cmpi .eq (b (ix1 n)) (BitVec.ofNat 32 g.val)).toNat : ℝ) : EReal)
    = if b (ix1 n) = BitVec.ofNat 32 g.val then (1 : EReal) else 0
  by_cases h : b (ix1 n) = BitVec.ofNat 32 g.val
  · rw [if_pos h, StableHlo.Predicate.cmpi_eq_iff.mpr h]; simp
  · rw [if_neg h]
    have : IntOp.cmpi .eq (b (ix1 n)) (BitVec.ofNat 32 g.val) = 0#1 := by
      rcases (show ∀ x : BitVec 1, x = 0#1 ∨ x = 1#1 by decide) (IntOp.cmpi .eq (b (ix1 n)) (BitVec.ofNat 32 g.val)) with h0 | h1
      · exact h0
      · exact absurd (StableHlo.Predicate.cmpi_eq_iff.mp h1) h
    rw [this]; simp

theorem w19_oh (c : Dev nD) :
    W19 m ρ c main_v143 = Gcn.ohOf (fun n => m ((c : Thread nD τ).loc main_arg10) (ix1 n)) := by
  after_results
  rw [w18_arg10]
  exact oh_term _

theorem w19_cnt (c : Dev nD) (g : Fin 128) :
    W19 m ρ c main_v145 (ix1 g)
      = Gcn.countK (Gcn.ohOf (fun n => m ((c : Thread nD τ).loc main_arg10) (ix1 n))) g := by
  after_results
  rw [w18_arg10, oh_term]
  rw [hostReduceAdd_apply, Ideal.hostReduceAdd_single _ (by decide : S50000x128.Reduces [0] S128)]
  unfold Gcn.countK
  refine congrArg₂ (· + ·) rfl (Finset.sum_congr rfl fun k _ => ?_)
  unfold extf
  simp only [Ideal.extf_def]
  refine congrArg _ (funext fun a => ?_)
  match a with
  | ⟨0, _⟩ => rfl
  | ⟨1, _⟩ => rfl

theorem w21_pooled (c : Dev nD) :
    W21 m ρ c main_v151
      = Gcn.pooledK (fun n => m ((c : Thread nD τ).loc main_arg10) (ix1 n)) (W18 m ρ c main_v136) := by
  after_results
  have h146 : W20 m ρ c main_v146
      = Gcn.poolSumK (Gcn.ohOf (fun n => m ((c : Thread nD τ).loc main_arg10) (ix1 n))) (W18 m ρ c main_v136) := by
    refine ((W20_arr m ρ c 2).trans (pool_final9 (V19 m ρ) c)).trans ?_
    show Gcn.poolSumK (W19 m ρ c main_v143) (W19 m ρ c main_v136) = _
    rw [w19_oh, w19_v136]
  have h145 : W20 m ρ c main_v145 = W19 m ρ c main_v145 := W20_of_ne m ρ c main_v145 (by decide)
  rw [h146, h145]
  funext i
  obtain ⟨g, d, rfl⟩ : ∃ (g : Fin 128) (d : Fin 128), i = ix2 g d := ⟨i 0, i 1, eq_ix2 i⟩
  unfold Gcn.pooledK Host.divf
  simp only [Ideal.hostDivf_def]
  refine congrArg₂ Ideal.div rfl ?_
  rw [broadcastInDim_apply _ _ _ (ix2 g d) (ix2 g (0 : Fin 1)) (by intro a; match a with | ⟨0, _⟩ => rfl | ⟨1, _⟩ => rfl),
    broadcastInDim_apply _ _ _ (ix2 g (0 : Fin 1)) (ix1 g) (by intro a; match a with | ⟨0, _⟩ => rfl),
    maximumf_apply, w19_cnt, broadcastInDim_scalar_apply, constant_apply]

theorem w21_b1 (c : Dev nD) :
    (fun d : Fin 128 => W21 m ρ c main_v152 (ix2 (0 : Fin 1) d)) = fun d => m ((c : Thread nD τ).loc main_arg6) (ix1 d) := by
  funext d
  after_results
  rw [w20_arg6, broadcastInDim_apply _ _ _ (ix2 (0 : Fin 1) d) (ix1 d) (by intro a; match a with | ⟨0, _⟩ => rfl)]

theorem w21_b2 (c : Dev nD) :
    (fun d : Fin 2 => W21 m ρ c main_v153 (ix2 (0 : Fin 1) d)) = fun d => m ((c : Thread nD τ).loc main_arg8) (ix1 d) := by
  funext d
  after_results
  rw [w20_arg8, broadcastInDim_apply _ _ _ (ix2 (0 : Fin 1) d) (ix1 d) (by intro a; match a with | ⟨0, _⟩ => rfl)]

theorem khead (c : Dev nD) :
    W22 m ρ c main_v154
      = Gcn.mlp (Gcn.pooledK (fun n => m ((c : Thread nD τ).loc main_arg10) (ix1 n)) (W18 m ρ c main_v136))
          (m ((c : Thread nD τ).loc main_arg5)) (fun d => m ((c : Thread nD τ).loc main_arg6) (ix1 d))
          (m ((c : Thread nD τ).loc main_arg7)) (fun d => m ((c : Thread nD τ).loc main_arg8) (ix1 d)) := by
  refine ((W22_arr m ρ c 5).trans (mlp_final10 (V21 m ρ) c)).trans ?_
  show Gcn.mlp (W21 m ρ c main_v151) (W21 m ρ c main_arg5)
      (fun d => W21 m ρ c main_v152 (ix2 (0 : Fin 1) d)) (W21 m ρ c main_arg7)
      (fun d => W21 m ρ c main_v153 (ix2 (0 : Fin 1) d)) = _
  rw [w21_pooled, w21_arg5, w21_arg7, w21_b1, w21_b2]

end Cert.KernelIdeal.Val

end
-- ==== Proof.KChain.lean ====
import proofs.«427771_j81243601371607_1_alg».proof.Proof.KReg0
import proofs.«427771_j81243601371607_1_alg».proof.Proof.KReg1
import proofs.«427771_j81243601371607_1_alg».proof.Proof.KReg2
import proofs.«427771_j81243601371607_1_alg».proof.Proof.KReg3
import proofs.«427771_j81243601371607_1_alg».proof.Proof.KReg4
import proofs.«427771_j81243601371607_1_alg».proof.Proof.KReg5
import proofs.«427771_j81243601371607_1_alg».proof.Proof.KReg6
import proofs.«427771_j81243601371607_1_alg».proof.Proof.KReg7
import proofs.«427771_j81243601371607_1_alg».proof.Proof.KReg8
import proofs.«427771_j81243601371607_1_alg».proof.Proof.KReg9
import proofs.«427771_j81243601371607_1_alg».proof.Proof.KReg10
import proofs.«427771_j81243601371607_1_alg».proof.Proof.KChainH

set_option maxRecDepth 16384

noncomputable section

namespace Cert.KernelIdeal.Val

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

theorem wslice_read (o : Nat) (l : Fin 3) (hl : l.val = o) (Wt : S3x128x128.Idx → EReal)
    (hs : S3x128x128.Slices ![o, 0, 0] S1x128x128) (hc : S1x128x128.ShapeCasts S128x128) :
    shapeCast S128x128 (extractStridedSlice S1x128x128 ![o, 0, 0] Wt hs) hc = Gcn.wOf Wt l := by
  funext j
  refine ((congrArg _ (eq_ix2 j)).trans (shapeCast_1ab_ab_apply _ hc (j 0) (j 1))).trans ?_
  refine extractStridedSlice_apply _ _ hs _ (ix3 l (j 0) (j 1)) fun a => ?_
  match a with
  | ⟨0, _⟩ => show l.val = o + 0; omega
  | ⟨1, _⟩ => show (j 0).val = 0 + (j 0).val; omega
  | ⟨2, _⟩ => show (j 1).val = 0 + (j 1).val; omega

theorem row_read (o : Nat) (l : Fin 3) (hl : l.val = o) (B : S3x128.Idx → EReal)
    (hs : S3x128.Slices ![o, 0] S1x128) (hc : S1x128.ShapeCasts S128)
    (hb : S128.BroadcastsInDim S1x128 (![1] : Fin 1 → Fin S1x128.rank)) (d : Fin 128) :
    broadcastInDim S1x128 ![1] hb (shapeCast S128 (extractStridedSlice S1x128 ![o, 0] B hs) hc) (ix2 0 d) = Gcn.rowOf B l d := by
  refine (broadcastInDim_apply _ hb _ _ (ix1 d) fun a => ?_).trans ?_
  · match a with
    | ⟨0, _⟩ => rfl
  refine (shapeCast_1a_a_apply _ hc d).trans ?_
  exact slice2_axis0_apply o B hs 0 d l (by omega)

def eK (a : Gcn.Mat) (sn : Fin 50000 → EReal) (h : Gcn.Mat) (b : Fin 128 → EReal) : Gcn.Mat :=
  fun i => Gcn.eluK (Gcn.pre a sn h b i)

theorem eK_congr {a a' : Gcn.Mat} {sn sn' : Fin 50000 → EReal} {h h' : Gcn.Mat} {b b' : Fin 128 → EReal}
    (h1 : a = a') (h2 : sn = sn') (h3 : h = h') (h4 : b = b') : eK a sn h b = eK a' sn' h' b' := by
  subst h1 h2 h3 h4; rfl

def X0 (c : Dev nD) : Gcn.Mat := m ((c : Thread nD τ).loc main_arg0)
def layerOf (c : Dev nD) (l : Fin 3) (x : Gcn.Mat) : Gcn.Mat :=
  Gcn.layerK (Gcn.aggOf (m ((c : Thread nD τ).loc main_arg9))) (Gcn.snOf (m ((c : Thread nD τ).loc main_arg9))) x (Gcn.wOf (m ((c : Thread nD τ).loc main_arg1)) l)
    (Gcn.rowOf (m ((c : Thread nD τ).loc main_arg2)) l) (Gcn.rowOf (m ((c : Thread nD τ).loc main_arg3)) l) (Gcn.rowOf (m ((c : Thread nD τ).loc main_arg4)) l)
def X1 (c : Dev nD) : Gcn.Mat := layerOf m c 0 (X0 m c)
def X2 (c : Dev nD) : Gcn.Mat := layerOf m c 1 (X1 m c)
def X3 (c : Dev nD) : Gcn.Mat := layerOf m c 2 (X2 m c)
def hOf (c : Dev nD) (l : Fin 3) (x : Gcn.Mat) : Gcn.Mat := Gcn.mm x (Gcn.wOf (m ((c : Thread nD τ).loc main_arg1)) l)
def eOfL (c : Dev nD) (l : Fin 3) (x : Gcn.Mat) : Gcn.Mat :=
  eK (Gcn.aggOf (m ((c : Thread nD τ).loc main_arg9)) (hOf m c l x)) (Gcn.snOf (m ((c : Thread nD τ).loc main_arg9))) (hOf m c l x) (Gcn.rowOf (m ((c : Thread nD τ).loc main_arg2)) l)

variable {m ρ} {c : Dev nD}

-- A layer is the normalisation of its activated convolution by that array's own column statistics.
theorem layer_congr {l : Fin 3} {x e : Gcn.Mat} {mu istd g be : Fin 128 → EReal} (h1 : e = eOfL m c l x)
    (h2 : mu = Gcn.meanOf (eOfL m c l x)) (h3 : istd = fun d => Ideal.rsqrt (Gcn.varK (eOfL m c l x) d + Gcn.cEps))
    (h4 : g = Gcn.rowOf (m ((c : Thread nD τ).loc main_arg3)) l) (h5 : be = Gcn.rowOf (m ((c : Thread nD τ).loc main_arg4)) l) :
    Gcn.bnorm e mu istd g be = layerOf m c l x := by
  subst h1 h2 h3 h4 h5; rfl

theorem keep {W : List (Ref sig .tc)} {ops : List (HloOp τ sig (Elt Ideal))} {V : Valuation τ sig (Elt Ideal)} {b : Ref sig .tc}
    (hW : Wr W ops) (hb : b ∉ W := by decide) : StableHlo.after ops V b = V b :=
  StableHlo.after_of_writes_sub ops V hW hb

def K : List (Ref sig .tc) := [main_arg1, main_arg2, main_arg3, main_arg4, main_v1, main_v3, main_v26]

theorem w2 (b : Ref sig .tc) (hb : b ∈ [main_arg1, main_arg2, main_arg3, main_arg4] := by decide) : W2 m ρ c b = W0 m ρ c b :=
  step c hostW.1 (by decide) _ _ b hb
theorem c4 (b : Ref sig .tc) (hb : b ∈ K := by decide) : W4 m ρ c b = W2 m ρ c b :=
  step c hostW.2.1 (by decide) _ _ b hb
theorem c6 (b : Ref sig .tc) (hb : b ∈ K := by decide) : W6 m ρ c b = W2 m ρ c b :=
  (step c hostW.2.2.1 (by decide) _ _ b hb).trans (c4 b hb)
theorem c8 (b : Ref sig .tc) (hb : b ∈ K := by decide) : W8 m ρ c b = W2 m ρ c b :=
  (step c hostW.2.2.2.1 (by decide) _ _ b hb).trans (c6 b hb)
theorem c10 (b : Ref sig .tc) (hb : b ∈ K := by decide) : W10 m ρ c b = W2 m ρ c b :=
  (step c hostW.2.2.2.2.1 (by decide) _ _ b hb).trans (c8 b hb)
theorem c12 (b : Ref sig .tc) (hb : b ∈ K := by decide) : W12 m ρ c b = W2 m ρ c b :=
  (step c hostW.2.2.2.2.2.1 (by decide) _ _ b hb).trans (c10 b hb)
theorem c14 (b : Ref sig .tc) (hb : b ∈ K := by decide) : W14 m ρ c b = W2 m ρ c b :=
  (step c hostW.2.2.2.2.2.2.1 (by decide) _ _ b hb).trans (c12 b hb)
theorem c16 (b : Ref sig .tc) (hb : b ∈ K := by decide) : W16 m ρ c b = W2 m ρ c b :=
  (step c hostW.2.2.2.2.2.2.2.1 (by decide) _ _ b hb).trans (c14 b hb)

theorem src_0 : W2 m ρ c main_v1 = Gcn.srcW (m ((c : Thread nD τ).loc main_arg9)) := by
  rw [W2_of_ne m ρ c main_v1 (by decide)]
  after_results_simp
  rfl
theorem dst_0 : W2 m ρ c main_v3 = Gcn.dstW (m ((c : Thread nD τ).loc main_arg9)) := by
  rw [W2_of_ne m ρ c main_v3 (by decide)]
  after_results_simp
  rfl
theorem norm_0 : W2 m ρ c main_v26 = Gcn.normOf (m ((c : Thread nD τ).loc main_arg9)) := by
  rw [W2_of_ne m ρ c main_v26 (by decide)]
  after_results_simp
  rfl

theorem xin_0 : W1 m ρ c main_arg0 = X0 m c :=
  (keep hostW.1)
theorem w_0 : W1 m ρ c main_v30 = Gcn.wOf (m ((c : Thread nD τ).loc main_arg1)) 0 := by
  after_results_simp
  exact wslice_read 0 0 rfl _ _ _
theorem h_0 : W2 m ρ c main_v31 = hOf m c 0 (X0 m c) :=
  (W2_arr m ρ c 2).trans ((mm_final0 _ c).trans (congrArg₂ Gcn.mm xin_0 w_0))
theorem agg_0 : W3 m ρ c main_v44 = Gcn.aggOf (m ((c : Thread nD τ).loc main_arg9)) (hOf m c 0 (X0 m c)) := by
  after_results_simp
  rw [src_0, dst_0, norm_0, h_0]
  rfl
theorem brow_0 (d : Fin 128) : W3 m ρ c main_v47 (ix2 0 d) = Gcn.rowOf (m ((c : Thread nD τ).loc main_arg2)) 0 d := by
  after_results_simp
  rw [w2 main_arg2]
  exact row_read 0 0 rfl _ _ _ _ d
theorem sn_0 : W3 m ρ c main_v28 = Gcn.snCol (m ((c : Thread nD τ).loc main_arg9)) := by
  refine (keep hostW.2.1).trans ((W2_of_ne m ρ c main_v28 (by decide)).trans ?_)
  after_results_simp
  rfl
theorem eOf_0 : eOf1 (V3 m ρ) c = eOfL m c 0 (X0 m c) :=
  eK_congr agg_0 (funext fun n => congrFun sn_0 (ix2 n 0)) ((keep hostW.2.1).trans h_0) (funext brow_0)
theorem e_0 : W4 m ρ c main_v48_0 = eOfL m c 0 (X0 m c) :=
  (W4_arr m ρ c 4).trans ((comb_final1_e _ c).trans eOf_0)
theorem s_0 : W4 m ρ c main_v48_1 = fun j => Gcn.colSum (eOfL m c 0 (X0 m c)) (j 1) :=
  (W4_arr m ρ c 5).trans (eOf_0 ▸ comb_final1_s (V3 m ρ) c)
theorem q_0 : W4 m ρ c main_v48_2 = fun j => Gcn.colSum (fun i => eOfL m c 0 (X0 m c) i * eOfL m c 0 (X0 m c) i) (j 1) :=
  (W4_arr m ρ c 6).trans (eOf_0 ▸ comb_final1_q (V3 m ρ) c)
theorem mean_0 (d : Fin 128) : W5 m ρ c main_v50 (ix2 0 d) = Gcn.meanOf (eOfL m c 0 (X0 m c)) d := by
  after_results_simp
  rw [s_0]
  rfl
theorem istd_0 (d : Fin 128) : W5 m ρ c main_v57 (ix2 0 d) = Ideal.rsqrt (Gcn.varK (eOfL m c 0 (X0 m c)) d + Gcn.cEps) := by
  after_results_simp
  rw [s_0, q_0]
  rfl
theorem grow_0 (d : Fin 128) : W5 m ρ c main_v60 (ix2 0 d) = Gcn.rowOf (m ((c : Thread nD τ).loc main_arg3)) 0 d := by
  after_results_simp
  rw [c4 main_arg3, w2 main_arg3]
  exact row_read 0 0 rfl _ _ _ _ d
theorem berow_0 (d : Fin 128) : W5 m ρ c main_v63 (ix2 0 d) = Gcn.rowOf (m ((c : Thread nD τ).loc main_arg4)) 0 d := by
  after_results_simp
  rw [c4 main_arg4, w2 main_arg4]
  exact row_read 0 0 rfl _ _ _ _ d
theorem out_0 : W6 m ρ c main_v64 = X1 m c :=
  (W6_arr m ρ c 5).trans ((norm_final2 _ c).trans
    (layer_congr ((keep hostW.2.2.1).trans e_0) (funext mean_0) (funext istd_0) (funext grow_0) (funext berow_0)))

theorem xin_1 : W7 m ρ c main_v64 = X1 m c :=
  (keep hostW.2.2.2.1).trans out_0
theorem w_1 : W7 m ρ c main_v66 = Gcn.wOf (m ((c : Thread nD τ).loc main_arg1)) 1 := by
  after_results_simp
  rw [c6 main_arg1, w2 main_arg1]
  exact wslice_read 1 1 rfl _ _ _
theorem h_1 : W8 m ρ c main_v67 = hOf m c 1 (X1 m c) :=
  (W8_arr m ρ c 2).trans ((mm_final3 _ c).trans (congrArg₂ Gcn.mm xin_1 w_1))
theorem agg_1 : W9 m ρ c main_v80 = Gcn.aggOf (m ((c : Thread nD τ).loc main_arg9)) (hOf m c 1 (X1 m c)) := by
  after_results_simp
  rw [c8 main_v1, c8 main_v3, c8 main_v26, src_0, dst_0, norm_0, h_1]
  rfl
theorem brow_1 (d : Fin 128) : W9 m ρ c main_v83 (ix2 0 d) = Gcn.rowOf (m ((c : Thread nD τ).loc main_arg2)) 1 d := by
  after_results_simp
  rw [c8 main_arg2, w2 main_arg2]
  exact row_read 1 1 rfl _ _ _ _ d
theorem sn_1 : W9 m ρ c main_v28 = Gcn.snCol (m ((c : Thread nD τ).loc main_arg9)) :=
  (keep hostW.2.2.2.2.1).trans ((step c hostW.2.2.2.1 (by decide) _ _ main_v28 (List.mem_singleton_self _)).trans ((step c hostW.2.2.1 (by decide) _ _ main_v28 (List.mem_singleton_self _)).trans (((W4_arr m ρ c 2).trans (((dat1 (V3 m ρ) c).arrAt_in 2 rfl _).trans (A_eq1 (V3 m ρ) c 2))).trans sn_0)))
theorem eOf_1 : eOf4 (V9 m ρ) c = eOfL m c 1 (X1 m c) :=
  eK_congr agg_1 (funext fun n => congrFun sn_1 (ix2 n 0)) ((keep hostW.2.2.2.2.1).trans h_1) (funext brow_1)
theorem e_1 : W10 m ρ c main_v84_0 = eOfL m c 1 (X1 m c) :=
  (W10_arr m ρ c 4).trans ((comb_final4_e _ c).trans eOf_1)
theorem s_1 : W10 m ρ c main_v84_1 = fun j => Gcn.colSum (eOfL m c 1 (X1 m c)) (j 1) :=
  (W10_arr m ρ c 5).trans (eOf_1 ▸ comb_final4_s (V9 m ρ) c)
theorem q_1 : W10 m ρ c main_v84_2 = fun j => Gcn.colSum (fun i => eOfL m c 1 (X1 m c) i * eOfL m c 1 (X1 m c) i) (j 1) :=
  (W10_arr m ρ c 6).trans (eOf_1 ▸ comb_final4_q (V9 m ρ) c)
theorem mean_1 (d : Fin 128) : W11 m ρ c main_v86 (ix2 0 d) = Gcn.meanOf (eOfL m c 1 (X1 m c)) d := by
  after_results_simp
  rw [s_1]
  rfl
theorem istd_1 (d : Fin 128) : W11 m ρ c main_v93 (ix2 0 d) = Ideal.rsqrt (Gcn.varK (eOfL m c 1 (X1 m c)) d + Gcn.cEps) := by
  after_results_simp
  rw [s_1, q_1]
  rfl
theorem grow_1 (d : Fin 128) : W11 m ρ c main_v96 (ix2 0 d) = Gcn.rowOf (m ((c : Thread nD τ).loc main_arg3)) 1 d := by
  after_results_simp
  rw [c10 main_arg3, w2 main_arg3]
  exact row_read 1 1 rfl _ _ _ _ d
theorem berow_1 (d : Fin 128) : W11 m ρ c main_v99 (ix2 0 d) = Gcn.rowOf (m ((c : Thread nD τ).loc main_arg4)) 1 d := by
  after_results_simp
  rw [c10 main_arg4, w2 main_arg4]
  exact row_read 1 1 rfl _ _ _ _ d
theorem out_1 : W12 m ρ c main_v100 = X2 m c :=
  (W12_arr m ρ c 5).trans ((norm_final5 _ c).trans
    (layer_congr ((keep hostW.2.2.2.2.2.1).trans e_1) (funext mean_1) (funext istd_1) (funext grow_1) (funext berow_1)))

theorem xin_2 : W13 m ρ c main_v100 = X2 m c :=
  (keep hostW.2.2.2.2.2.2.1).trans out_1
theorem w_2 : W13 m ρ c main_v102 = Gcn.wOf (m ((c : Thread nD τ).loc main_arg1)) 2 := by
  after_results_simp
  rw [c12 main_arg1, w2 main_arg1]
  exact wslice_read 2 2 rfl _ _ _
theorem h_2 : W14 m ρ c main_v103 = hOf m c 2 (X2 m c) :=
  (W14_arr m ρ c 2).trans ((mm_final6 _ c).trans (congrArg₂ Gcn.mm xin_2 w_2))
theorem agg_2 : W15 m ρ c main_v116 = Gcn.aggOf (m ((c : Thread nD τ).loc main_arg9)) (hOf m c 2 (X2 m c)) := by
  after_results_simp
  rw [c14 main_v1, c14 main_v3, c14 main_v26, src_0, dst_0, norm_0, h_2]
  rfl
theorem brow_2 (d : Fin 128) : W15 m ρ c main_v119 (ix2 0 d) = Gcn.rowOf (m ((c : Thread nD τ).loc main_arg2)) 2 d := by
  after_results_simp
  rw [c14 main_arg2, w2 main_arg2]
  exact row_read 2 2 rfl _ _ _ _ d
theorem sn_2 : W15 m ρ c main_v28 = Gcn.snCol (m ((c : Thread nD τ).loc main_arg9)) :=
  (keep hostW.2.2.2.2.2.2.2.1).trans ((step c hostW.2.2.2.2.2.2.1 (by decide) _ _ main_v28 (List.mem_singleton_self _)).trans ((step c hostW.2.2.2.2.2.1 (by decide) _ _ main_v28 (List.mem_singleton_self _)).trans (((W10_arr m ρ c 2).trans (((dat4 (V9 m ρ) c).arrAt_in 2 rfl _).trans (A_eq4 (V9 m ρ) c 2))).trans sn_1)))
theorem eOf_2 : eOf7 (V15 m ρ) c = eOfL m c 2 (X2 m c) :=
  eK_congr agg_2 (funext fun n => congrFun sn_2 (ix2 n 0)) ((keep hostW.2.2.2.2.2.2.2.1).trans h_2) (funext brow_2)
theorem e_2 : W16 m ρ c main_v120_0 = eOfL m c 2 (X2 m c) :=
  (W16_arr m ρ c 4).trans ((comb_final7_e _ c).trans eOf_2)
theorem s_2 : W16 m ρ c main_v120_1 = fun j => Gcn.colSum (eOfL m c 2 (X2 m c)) (j 1) :=
  (W16_arr m ρ c 5).trans (eOf_2 ▸ comb_final7_s (V15 m ρ) c)
theorem q_2 : W16 m ρ c main_v120_2 = fun j => Gcn.colSum (fun i => eOfL m c 2 (X2 m c) i * eOfL m c 2 (X2 m c) i) (j 1) :=
  (W16_arr m ρ c 6).trans (eOf_2 ▸ comb_final7_q (V15 m ρ) c)
theorem mean_2 (d : Fin 128) : W17 m ρ c main_v122 (ix2 0 d) = Gcn.meanOf (eOfL m c 2 (X2 m c)) d := by
  after_results_simp
  rw [s_2]
  rfl
theorem istd_2 (d : Fin 128) : W17 m ρ c main_v129 (ix2 0 d) = Ideal.rsqrt (Gcn.varK (eOfL m c 2 (X2 m c)) d + Gcn.cEps) := by
  after_results_simp
  rw [s_2, q_2]
  rfl
theorem grow_2 (d : Fin 128) : W17 m ρ c main_v132 (ix2 0 d) = Gcn.rowOf (m ((c : Thread nD τ).loc main_arg3)) 2 d := by
  after_results_simp
  rw [c16 main_arg3, w2 main_arg3]
  exact row_read 2 2 rfl _ _ _ _ d
theorem berow_2 (d : Fin 128) : W17 m ρ c main_v135 (ix2 0 d) = Gcn.rowOf (m ((c : Thread nD τ).loc main_arg4)) 2 d := by
  after_results_simp
  rw [c16 main_arg4, w2 main_arg4]
  exact row_read 2 2 rfl _ _ _ _ d
theorem out_2 : W18 m ρ c main_v136 = X3 m c :=
  (W18_arr m ρ c 5).trans ((norm_final8 _ c).trans
    (layer_congr ((keep hostW.2.2.2.2.2.2.2.2.1).trans e_2) (funext mean_2) (funext istd_2) (funext grow_2) (funext berow_2)))

variable (m ρ)

theorem kval (c : Dev nD) :
    W22 (F := Ideal) m ρ c (Proc.devRef .tc main_v154)
      = Gcn.netK (Gcn.aggOf (m ((c : Thread nD τ).loc main_arg9))) (Gcn.snOf (m ((c : Thread nD τ).loc main_arg9)))
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg10)) := by
  rw [khead m ρ c, out_2]
  unfold Gcn.netK X3 X2 X1 X0 layerOf
  rfl

end Cert.KernelIdeal.Val

end
-- ==== Proof.RefOps.lean ====
import proofs.«427771_j81243601371607_1_alg».proof.Proof.Gen.ReferenceIdeal
import Idealize.ShloMosaic.Lib.StableHlo.Run

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

abbrev opsP : List (HloOp τ sig (Elt F)) :=
  [ StableHlo.unary main_arg9 main_v0 (extractStridedSlice S1x800000 ![0, 0] · slices_S2x800000_S1x800000_0_0),
    StableHlo.reshape main_v0 main_v1 rfl shapeCasts_S1x800000_S800000,
    StableHlo.unary main_arg9 main_v2 (extractStridedSlice S1x800000 ![1, 0] · slices_S2x800000_S1x800000_1_0),
    StableHlo.reshape main_v2 main_v3 rfl shapeCasts_S1x800000_S800000,
    StableHlo.nullary main_cst (constant S_ .f32 0x3F800000#32),
    StableHlo.unary main_cst main_v4 (broadcastInDim S800000 ![] bcast_S_S800000),
    StableHlo.nullary main_cst_0 (constant S_ .f32 0x00000000#32),
    StableHlo.unary main_cst_0 main_v5 (broadcastInDim S50000 ![] bcast_S_S50000),
    StableHlo.unary main_v3 main_v6 (broadcastInDim S800000x1 ![0] bcast_S800000_S800000x1_0),
    StableHlo.ternary main_v5 main_v6 main_v4 main_v7 (fun x i u => Host.scatterAdd scatter_S50000_S800000x1_S800000_n_0_0_1 x i u),
    StableHlo.nullary main_cst_1 (constant S_ .f32 0x3F800000#32),
    StableHlo.unary main_cst_1 main_v8 (broadcastInDim S50000 ![] bcast_S_S50000),
    StableHlo.binary main_v7 main_v8 main_v9 addf,
    StableHlo.nullary main_cst_2 (constant S_ .f32 0xBF000000#32),
    StableHlo.unary main_cst_2 main_v10 (broadcastInDim S50000 ![] bcast_S_S50000),
    StableHlo.binary main_v9 main_v10 main_v11 Host.powf,
    StableHlo.nullary main_c (constantI S_ 32 0#32),
    StableHlo.unary main_c main_v12 (broadcastInDim S800000 ![] bcast_S_S800000),
    StableHlo.binary main_v1 main_v12 main_v13 (cmpi .slt),
    StableHlo.nullary main_c_3 (constantI S_ 32 50000#32),
    StableHlo.unary main_c_3 main_v14 (broadcastInDim S800000 ![] bcast_S_S800000),
    StableHlo.binary main_v1 main_v14 main_v15 addi,
    StableHlo.ternary main_v13 main_v15 main_v1 main_v16 select,
    StableHlo.unary main_v16 main_v17 (broadcastInDim S800000x1 ![0] bcast_S800000_S800000x1_0),
    StableHlo.binary main_v11 main_v17 main_v18 (fun x i => Host.gather gather_S50000_S800000x1_S800000_n_0_n_n_0_1_1 x i),
    StableHlo.nullary main_c_4 (constantI S_ 32 0#32),
    StableHlo.unary main_c_4 main_v19 (broadcastInDim S800000 ![] bcast_S_S800000),
    StableHlo.binary main_v3 main_v19 main_v20 (cmpi .slt),
    StableHlo.nullary main_c_5 (constantI S_ 32 50000#32),
    StableHlo.unary main_c_5 main_v21 (broadcastInDim S800000 ![] bcast_S_S800000),
    StableHlo.binary main_v3 main_v21 main_v22 addi,
    StableHlo.ternary main_v20 main_v22 main_v3 main_v23 select,
    StableHlo.unary main_v23 main_v24 (broadcastInDim S800000x1 ![0] bcast_S800000_S800000x1_0),
    StableHlo.binary main_v11 main_v24 main_v25 (fun x i => Host.gather gather_S50000_S800000x1_S800000_n_0_n_n_0_1_1 x i),
    StableHlo.binary main_v18 main_v25 main_v26 mulf,
    StableHlo.binary main_v11 main_v11 main_v27 mulf,
    StableHlo.unary main_v27 main_v28 (broadcastInDim S50000x1 ![0] bcast_S50000_S50000x1_0) ]

abbrev opsL0a : List (HloOp τ sig (Elt F)) :=
  [ StableHlo.unary main_arg1 main_v29 (extractStridedSlice S1x128x128 ![0, 0, 0] · slices_S3x128x128_S1x128x128_0_0_0),
    StableHlo.reshape main_v29 main_v30 rfl shapeCasts_S1x128x128_S128x128,
    StableHlo.binary main_arg0 main_v30 main_v31 (fun l r => Host.dotGeneral dot_S50000x128_S128x128_S50000x128_1_0_0_1_n_n none l r) ]

abbrev opsL0b : List (HloOp τ sig (Elt F)) :=
  [ StableHlo.nullary main_c_6 (constantI S_ 32 0#32),
    StableHlo.unary main_c_6 main_v32 (broadcastInDim S800000 ![] bcast_S_S800000),
    StableHlo.binary main_v1 main_v32 main_v33 (cmpi .slt),
    StableHlo.nullary main_c_7 (constantI S_ 32 50000#32),
    StableHlo.unary main_c_7 main_v34 (broadcastInDim S800000 ![] bcast_S_S800000),
    StableHlo.binary main_v1 main_v34 main_v35 addi,
    StableHlo.ternary main_v33 main_v35 main_v1 main_v36 select,
    StableHlo.unary main_v36 main_v37 (broadcastInDim S800000x1 ![0] bcast_S800000_S800000x1_0),
    StableHlo.binary main_v31 main_v37 main_v38 (fun x i => Host.gather gather_S50000x128_S800000x1_S800000x128_1_0_n_n_0_1_1128 x i),
    StableHlo.unary main_v26 main_v39 (broadcastInDim S800000x1 ![0] bcast_S800000_S800000x1_0),
    StableHlo.unary main_v39 main_v40 (broadcastInDim S800000x128 ![0, 1] bcast_S800000x1_S800000x128_0_1),
    StableHlo.binary main_v38 main_v40 main_v41 mulf,
    StableHlo.nullary main_cst_8 (constant S_ .f32 0x00000000#32),
    StableHlo.unary main_cst_8 main_v42 (broadcastInDim S50000x128 ![] bcast_S_S50000x128),
    StableHlo.unary main_v3 main_v43 (broadcastInDim S800000x1 ![0] bcast_S800000_S800000x1_0),
    StableHlo.ternary main_v42 main_v43 main_v41 main_v44 (fun x i u => Host.scatterAdd scatter_S50000x128_S800000x1_S800000x128_1_0_0_1 x i u) ]

abbrev opsL0c : List (HloOp τ sig (Elt F)) :=
  [ StableHlo.unary main_v28 main_v45 (broadcastInDim S50000x128 ![0, 1] bcast_S50000x1_S50000x128_0_1),
    StableHlo.binary main_v45 main_v31 main_v46 mulf,
    StableHlo.binary main_v44 main_v46 main_v47 addf,
    StableHlo.unary main_arg2 main_v48 (extractStridedSlice S1x128 ![0, 0] · slices_S3x128_S1x128_0_0),
    StableHlo.reshape main_v48 main_v49 rfl shapeCasts_S1x128_S128,
    StableHlo.unary main_v49 main_v50 (broadcastInDim S1x128 ![1] bcast_S128_S1x128_1),
    StableHlo.unary main_v50 main_v51 (broadcastInDim S50000x128 ![0, 1] bcast_S1x128_S50000x128_0_1),
    StableHlo.binary main_v47 main_v51 main_v52 addf ]

abbrev opsL0d : List (HloOp τ sig (Elt F)) :=
  [ StableHlo.TRef.nullary main_call0.cst (constant S_ .f32 0x00000000#32),
    StableHlo.TRef.unary main_call0.cst main_call0.v0 (broadcastInDim S50000x128 ![] bcast_S_S50000x128),
    StableHlo.TRef.binary ((.of main_v52) : StableHlo.TRef sig ⟨S50000x128, .f32⟩) main_call0.v0 main_call0.v1 (cmpf .ogt),
    StableHlo.TRef.nullary main_call0.cst_0 (constant S_ .f32 0x00000000#32),
    StableHlo.TRef.unary main_call0.cst_0 main_call0.v2 (broadcastInDim S50000x128 ![] bcast_S_S50000x128),
    StableHlo.TRef.binary ((.of main_v52) : StableHlo.TRef sig ⟨S50000x128, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S50000x128 ![] bcast_S_S50000x128),
    StableHlo.TRef.ternary main_call0.v3 main_call0.call0.v1 ((.of main_v52) : StableHlo.TRef sig ⟨S50000x128, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S50000x128 ![] bcast_S_S50000x128),
    StableHlo.TRef.binary main_call0.v6 main_call0.v5 main_call0.v7 mulf,
    StableHlo.TRef.ternary main_call0.v1 ((.of main_v52) : StableHlo.TRef sig ⟨S50000x128, .f32⟩) main_call0.v7 main_call0.call1.v0 select ]

abbrev opsL0e : List (HloOp τ sig (Elt F)) :=
  [ StableHlo.nullary main_cst_9 (constant S_ .f32 0x00000000#32),
    StableHlo.binary main_v53 main_cst_9 main_v54 (fun x v => Host.reduceAdd x v reducesTo_S50000x128_S128_d0 h_S_),
    StableHlo.nullary main_cst_10 (constant S_ .f32 0x47435000#32),
    StableHlo.unary main_cst_10 main_v55 (broadcastInDim S128 ![] bcast_S_S128),
    StableHlo.binary main_v54 main_v55 main_v56 Host.divf ]

abbrev opsL0f : List (HloOp τ sig (Elt F)) :=
  [ StableHlo.nullary main_c_11 (constantI S_ 32 0#32),
    StableHlo.TRef.nullary main_call1.cst (constant S_ .f32 0x00000000#32),
    StableHlo.TRef.binary ((.of main_v53) : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary ((.of main_v53) : StableHlo.TRef sig ⟨S50000x128, .f32⟩) main_call1.v4 main_call1.v5 subf,
    StableHlo.TRef.binary main_call1.v5 main_call1.v5 main_call1.v6 mulf,
    StableHlo.TRef.unary ((.of main_c_11) : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]

abbrev opsL0g : List (HloOp τ sig (Elt F)) :=
  [ StableHlo.unary main_v56 main_v58 (broadcastInDim S1x128 ![1] bcast_S128_S1x128_1),
    StableHlo.unary main_v58 main_v59 (broadcastInDim S50000x128 ![0, 1] bcast_S1x128_S50000x128_0_1),
    StableHlo.binary main_v53 main_v59 main_v60 subf,
    StableHlo.nullary main_cst_12 (constant S_ .f32 0x3727C5AC#32),
    StableHlo.unary main_cst_12 main_v61 (broadcastInDim S128 ![] bcast_S_S128),
    StableHlo.binary main_v57 main_v61 main_v62 addf,
    StableHlo.unary main_v62 main_v63 Host.rsqrt,
    StableHlo.unary main_v63 main_v64 (broadcastInDim S1x128 ![1] bcast_S128_S1x128_1),
    StableHlo.unary main_v64 main_v65 (broadcastInDim S50000x128 ![0, 1] bcast_S1x128_S50000x128_0_1),
    StableHlo.binary main_v60 main_v65 main_v66 mulf,
    StableHlo.unary main_arg3 main_v67 (extractStridedSlice S1x128 ![0, 0] · slices_S3x128_S1x128_0_0),
    StableHlo.reshape main_v67 main_v68 rfl shapeCasts_S1x128_S128,
    StableHlo.unary main_v68 main_v69 (broadcastInDim S1x128 ![1] bcast_S128_S1x128_1),
    StableHlo.unary main_v69 main_v70 (broadcastInDim S50000x128 ![0, 1] bcast_S1x128_S50000x128_0_1),
    StableHlo.binary main_v66 main_v70 main_v71 mulf,
    StableHlo.unary main_arg4 main_v72 (extractStridedSlice S1x128 ![0, 0] · slices_S3x128_S1x128_0_0),
    StableHlo.reshape main_v72 main_v73 rfl shapeCasts_S1x128_S128,
    StableHlo.unary main_v73 main_v74 (broadcastInDim S1x128 ![1] bcast_S128_S1x128_1),
    StableHlo.unary main_v74 main_v75 (broadcastInDim S50000x128 ![0, 1] bcast_S1x128_S50000x128_0_1),
    StableHlo.binary main_v71 main_v75 main_v76 addf ]

abbrev opsL0 : List (HloOp τ sig (Elt F)) :=
  opsL0a ++ (opsL0b ++ (opsL0c ++ (opsL0d ++ (opsL0e ++ (opsL0f ++ opsL0g)))))

theorem opsL0_cut : (opsL0 : List (HloOp τ sig (Elt F))) = opsL0a ++ (opsL0b ++ (opsL0c ++ (opsL0d ++ (opsL0e ++ (opsL0f ++ (opsL0g)))))) := rfl

abbrev opsL1a : List (HloOp τ sig (Elt F)) :=
  [ StableHlo.unary main_arg1 main_v77 (extractStridedSlice S1x128x128 ![1, 0, 0] · slices_S3x128x128_S1x128x128_1_0_0),
    StableHlo.reshape main_v77 main_v78 rfl shapeCasts_S1x128x128_S128x128,
    StableHlo.binary main_v76 main_v78 main_v79 (fun l r => Host.dotGeneral dot_S50000x128_S128x128_S50000x128_1_0_0_1_n_n none l r) ]

abbrev opsL1b : List (HloOp τ sig (Elt F)) :=
  [ StableHlo.nullary main_c_13 (constantI S_ 32 0#32),
    StableHlo.unary main_c_13 main_v80 (broadcastInDim S800000 ![] bcast_S_S800000),
    StableHlo.binary main_v1 main_v80 main_v81 (cmpi .slt),
    StableHlo.nullary main_c_14 (constantI S_ 32 50000#32),
    StableHlo.unary main_c_14 main_v82 (broadcastInDim S800000 ![] bcast_S_S800000),
    StableHlo.binary main_v1 main_v82 main_v83 addi,
    StableHlo.ternary main_v81 main_v83 main_v1 main_v84 select,
    StableHlo.unary main_v84 main_v85 (broadcastInDim S800000x1 ![0] bcast_S800000_S800000x1_0),
    StableHlo.binary main_v79 main_v85 main_v86 (fun x i => Host.gather gather_S50000x128_S800000x1_S800000x128_1_0_n_n_0_1_1128 x i),
    StableHlo.unary main_v26 main_v87 (broadcastInDim S800000x1 ![0] bcast_S800000_S800000x1_0),
    StableHlo.unary main_v87 main_v88 (broadcastInDim S800000x128 ![0, 1] bcast_S800000x1_S800000x128_0_1),
    StableHlo.binary main_v86 main_v88 main_v89 mulf,
    StableHlo.nullary main_cst_15 (constant S_ .f32 0x00000000#32),
    StableHlo.unary main_cst_15 main_v90 (broadcastInDim S50000x128 ![] bcast_S_S50000x128),
    StableHlo.unary main_v3 main_v91 (broadcastInDim S800000x1 ![0] bcast_S800000_S800000x1_0),
    StableHlo.ternary main_v90 main_v91 main_v89 main_v92 (fun x i u => Host.scatterAdd scatter_S50000x128_S800000x1_S800000x128_1_0_0_1 x i u) ]

abbrev opsL1c : List (HloOp τ sig (Elt F)) :=
  [ StableHlo.unary main_v28 main_v93 (broadcastInDim S50000x128 ![0, 1] bcast_S50000x1_S50000x128_0_1),
    StableHlo.binary main_v93 main_v79 main_v94 mulf,
    StableHlo.binary main_v92 main_v94 main_v95 addf,
    StableHlo.unary main_arg2 main_v96 (extractStridedSlice S1x128 ![1, 0] · slices_S3x128_S1x128_1_0),
    StableHlo.reshape main_v96 main_v97 rfl shapeCasts_S1x128_S128,
    StableHlo.unary main_v97 main_v98 (broadcastInDim S1x128 ![1] bcast_S128_S1x128_1),
    StableHlo.unary main_v98 main_v99 (broadcastInDim S50000x128 ![0, 1] bcast_S1x128_S50000x128_0_1),
    StableHlo.binary main_v95 main_v99 main_v100 addf ]

abbrev opsL1d : List (HloOp τ sig (Elt F)) :=
  [ StableHlo.TRef.nullary main_call2.cst (constant S_ .f32 0x00000000#32),
    StableHlo.TRef.unary main_call2.cst main_call2.v0 (broadcastInDim S50000x128 ![] bcast_S_S50000x128),
    StableHlo.TRef.binary ((.of main_v100) : StableHlo.TRef sig ⟨S50000x128, .f32⟩) main_call2.v0 main_call2.v1 (cmpf .ogt),
    StableHlo.TRef.nullary main_call2.cst_0 (constant S_ .f32 0x00000000#32),
    StableHlo.TRef.unary main_call2.cst_0 main_call2.v2 (broadcastInDim S50000x128 ![] bcast_S_S50000x128),
    StableHlo.TRef.binary ((.of main_v100) : StableHlo.TRef sig ⟨S50000x128, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S50000x128 ![] bcast_S_S50000x128),
    StableHlo.TRef.ternary main_call2.v3 main_call2.call0.v1 ((.of main_v100) : StableHlo.TRef sig ⟨S50000x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S50000x128 ![] bcast_S_S50000x128),
    StableHlo.TRef.binary main_call2.v6 main_call2.v5 main_call2.v7 mulf,
    StableHlo.TRef.ternary main_call2.v1 ((.of main_v100) : StableHlo.TRef sig ⟨S50000x128, .f32⟩) main_call2.v7 main_call2.call1.v0 select ]

abbrev opsL1e : List (HloOp τ sig (Elt F)) :=
  [ StableHlo.nullary main_cst_16 (constant S_ .f32 0x00000000#32),
    StableHlo.binary main_v101 main_cst_16 main_v102 (fun x v => Host.reduceAdd x v reducesTo_S50000x128_S128_d0 h_S_),
    StableHlo.nullary main_cst_17 (constant S_ .f32 0x47435000#32),
    StableHlo.unary main_cst_17 main_v103 (broadcastInDim S128 ![] bcast_S_S128),
    StableHlo.binary main_v102 main_v103 main_v104 Host.divf ]

abbrev opsL1f : List (HloOp τ sig (Elt F)) :=
  [ StableHlo.nullary main_c_18 (constantI S_ 32 0#32),
    StableHlo.TRef.nullary main_call3.cst (constant S_ .f32 0x00000000#32),
    StableHlo.TRef.binary ((.of main_v101) : StableHlo.TRef sig ⟨S50000x128, .f32⟩) main_call3.cst main_call3.v0 (fun x v => Host.reduceAdd x v reducesTo_S50000x128_S128_d0 h_S_),
    StableHlo.TRef.unary main_call3.v0 main_call3.v1 (broadcastInDim S1x128 ![1] bcast_S128_S1x128_1),
    StableHlo.TRef.nullary main_call3.cst_0 (constant S_ .f32 0x47435000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S50000x128 ![0, 1] bcast_S1x128_S50000x128_0_1),
    StableHlo.TRef.binary ((.of main_v101) : StableHlo.TRef sig ⟨S50000x128, .f32⟩) main_call3.v4 main_call3.v5 subf,
    StableHlo.TRef.binary main_call3.v5 main_call3.v5 main_call3.v6 mulf,
    StableHlo.TRef.unary ((.of main_c_18) : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b) ]

abbrev opsL1g : List (HloOp τ sig (Elt F)) :=
  [ StableHlo.unary main_v104 main_v106 (broadcastInDim S1x128 ![1] bcast_S128_S1x128_1),
    StableHlo.unary main_v106 main_v107 (broadcastInDim S50000x128 ![0, 1] bcast_S1x128_S50000x128_0_1),
    StableHlo.binary main_v101 main_v107 main_v108 subf,
    StableHlo.nullary main_cst_19 (constant S_ .f32 0x3727C5AC#32),
    StableHlo.unary main_cst_19 main_v109 (broadcastInDim S128 ![] bcast_S_S128),
    StableHlo.binary main_v105 main_v109 main_v110 addf,
    StableHlo.unary main_v110 main_v111 Host.rsqrt,
    StableHlo.unary main_v111 main_v112 (broadcastInDim S1x128 ![1] bcast_S128_S1x128_1),
    StableHlo.unary main_v112 main_v113 (broadcastInDim S50000x128 ![0, 1] bcast_S1x128_S50000x128_0_1),
    StableHlo.binary main_v108 main_v113 main_v114 mulf,
    StableHlo.unary main_arg3 main_v115 (extractStridedSlice S1x128 ![1, 0] · slices_S3x128_S1x128_1_0),
    StableHlo.reshape main_v115 main_v116 rfl shapeCasts_S1x128_S128,
    StableHlo.unary main_v116 main_v117 (broadcastInDim S1x128 ![1] bcast_S128_S1x128_1),
    StableHlo.unary main_v117 main_v118 (broadcastInDim S50000x128 ![0, 1] bcast_S1x128_S50000x128_0_1),
    StableHlo.binary main_v114 main_v118 main_v119 mulf,
    StableHlo.unary main_arg4 main_v120 (extractStridedSlice S1x128 ![1, 0] · slices_S3x128_S1x128_1_0),
    StableHlo.reshape main_v120 main_v121 rfl shapeCasts_S1x128_S128,
    StableHlo.unary main_v121 main_v122 (broadcastInDim S1x128 ![1] bcast_S128_S1x128_1),
    StableHlo.unary main_v122 main_v123 (broadcastInDim S50000x128 ![0, 1] bcast_S1x128_S50000x128_0_1),
    StableHlo.binary main_v119 main_v123 main_v124 addf ]

abbrev opsL1 : List (HloOp τ sig (Elt F)) :=
  opsL1a ++ (opsL1b ++ (opsL1c ++ (opsL1d ++ (opsL1e ++ (opsL1f ++ opsL1g)))))

theorem opsL1_cut : (opsL1 : List (HloOp τ sig (Elt F))) = opsL1a ++ (opsL1b ++ (opsL1c ++ (opsL1d ++ (opsL1e ++ (opsL1f ++ (opsL1g)))))) := rfl

abbrev opsL2a : List (HloOp τ sig (Elt F)) :=
  [ StableHlo.unary main_arg1 main_v125 (extractStridedSlice S1x128x128 ![2, 0, 0] · slices_S3x128x128_S1x128x128_2_0_0),
    StableHlo.reshape main_v125 main_v126 rfl shapeCasts_S1x128x128_S128x128,
    StableHlo.binary main_v124 main_v126 main_v127 (fun l r => Host.dotGeneral dot_S50000x128_S128x128_S50000x128_1_0_0_1_n_n none l r) ]

abbrev opsL2b : List (HloOp τ sig (Elt F)) :=
  [ StableHlo.nullary main_c_20 (constantI S_ 32 0#32),
    StableHlo.unary main_c_20 main_v128 (broadcastInDim S800000 ![] bcast_S_S800000),
    StableHlo.binary main_v1 main_v128 main_v129 (cmpi .slt),
    StableHlo.nullary main_c_21 (constantI S_ 32 50000#32),
    StableHlo.unary main_c_21 main_v130 (broadcastInDim S800000 ![] bcast_S_S800000),
    StableHlo.binary main_v1 main_v130 main_v131 addi,
    StableHlo.ternary main_v129 main_v131 main_v1 main_v132 select,
    StableHlo.unary main_v132 main_v133 (broadcastInDim S800000x1 ![0] bcast_S800000_S800000x1_0),
    StableHlo.binary main_v127 main_v133 main_v134 (fun x i => Host.gather gather_S50000x128_S800000x1_S800000x128_1_0_n_n_0_1_1128 x i),
    StableHlo.unary main_v26 main_v135 (broadcastInDim S800000x1 ![0] bcast_S800000_S800000x1_0),
    StableHlo.unary main_v135 main_v136 (broadcastInDim S800000x128 ![0, 1] bcast_S800000x1_S800000x128_0_1),
    StableHlo.binary main_v134 main_v136 main_v137 mulf,
    StableHlo.nullary main_cst_22 (constant S_ .f32 0x00000000#32),
    StableHlo.unary main_cst_22 main_v138 (broadcastInDim S50000x128 ![] bcast_S_S50000x128),
    StableHlo.unary main_v3 main_v139 (broadcastInDim S800000x1 ![0] bcast_S800000_S800000x1_0),
    StableHlo.ternary main_v138 main_v139 main_v137 main_v140 (fun x i u => Host.scatterAdd scatter_S50000x128_S800000x1_S800000x128_1_0_0_1 x i u) ]

abbrev opsL2c : List (HloOp τ sig (Elt F)) :=
  [ StableHlo.unary main_v28 main_v141 (broadcastInDim S50000x128 ![0, 1] bcast_S50000x1_S50000x128_0_1),
    StableHlo.binary main_v141 main_v127 main_v142 mulf,
    StableHlo.binary main_v140 main_v142 main_v143 addf,
    StableHlo.unary main_arg2 main_v144 (extractStridedSlice S1x128 ![2, 0] · slices_S3x128_S1x128_2_0),
    StableHlo.reshape main_v144 main_v145 rfl shapeCasts_S1x128_S128,
    StableHlo.unary main_v145 main_v146 (broadcastInDim S1x128 ![1] bcast_S128_S1x128_1),
    StableHlo.unary main_v146 main_v147 (broadcastInDim S50000x128 ![0, 1] bcast_S1x128_S50000x128_0_1),
    StableHlo.binary main_v143 main_v147 main_v148 addf ]

abbrev opsL2d : List (HloOp τ sig (Elt F)) :=
  [ StableHlo.TRef.nullary main_call4.cst (constant S_ .f32 0x00000000#32),
    StableHlo.TRef.unary main_call4.cst main_call4.v0 (broadcastInDim S50000x128 ![] bcast_S_S50000x128),
    StableHlo.TRef.binary ((.of main_v148) : StableHlo.TRef sig ⟨S50000x128, .f32⟩) main_call4.v0 main_call4.v1 (cmpf .ogt),
    StableHlo.TRef.nullary main_call4.cst_0 (constant S_ .f32 0x00000000#32),
    StableHlo.TRef.unary main_call4.cst_0 main_call4.v2 (broadcastInDim S50000x128 ![] bcast_S_S50000x128),
    StableHlo.TRef.binary ((.of main_v148) : StableHlo.TRef sig ⟨S50000x128, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S50000x128 ![] bcast_S_S50000x128),
    StableHlo.TRef.ternary main_call4.v3 main_call4.call0.v1 ((.of main_v148) : StableHlo.TRef sig ⟨S50000x128, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S50000x128 ![] bcast_S_S50000x128),
    StableHlo.TRef.binary main_call4.v6 main_call4.v5 main_call4.v7 mulf,
    StableHlo.TRef.ternary main_call4.v1 ((.of main_v148) : StableHlo.TRef sig ⟨S50000x128, .f32⟩) main_call4.v7 main_call4.call1.v0 select ]

abbrev opsL2e : List (HloOp τ sig (Elt F)) :=
  [ StableHlo.nullary main_cst_23 (constant S_ .f32 0x00000000#32),
    StableHlo.binary main_v149 main_cst_23 main_v150 (fun x v => Host.reduceAdd x v reducesTo_S50000x128_S128_d0 h_S_),
    StableHlo.nullary main_cst_24 (constant S_ .f32 0x47435000#32),
    StableHlo.unary main_cst_24 main_v151 (broadcastInDim S128 ![] bcast_S_S128),
    StableHlo.binary main_v150 main_v151 main_v152 Host.divf ]

abbrev opsL2f : List (HloOp τ sig (Elt F)) :=
  [ StableHlo.nullary main_c_25 (constantI S_ 32 0#32),
    StableHlo.TRef.nullary main_call5.cst (constant S_ .f32 0x00000000#32),
    StableHlo.TRef.binary ((.of main_v149) : StableHlo.TRef sig ⟨S50000x128, .f32⟩) main_call5.cst main_call5.v0 (fun x v => Host.reduceAdd x v reducesTo_S50000x128_S128_d0 h_S_),
    StableHlo.TRef.unary main_call5.v0 main_call5.v1 (broadcastInDim S1x128 ![1] bcast_S128_S1x128_1),
    StableHlo.TRef.nullary main_call5.cst_0 (constant S_ .f32 0x47435000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S50000x128 ![0, 1] bcast_S1x128_S50000x128_0_1),
    StableHlo.TRef.binary ((.of main_v149) : StableHlo.TRef sig ⟨S50000x128, .f32⟩) main_call5.v4 main_call5.v5 subf,
    StableHlo.TRef.binary main_call5.v5 main_call5.v5 main_call5.v6 mulf,
    StableHlo.TRef.unary ((.of main_c_25) : StableHlo.TRef sig ⟨S_, .i32⟩) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b) ]

abbrev opsL2g : List (HloOp τ sig (Elt F)) :=
  [ StableHlo.unary main_v152 main_v154 (broadcastInDim S1x128 ![1] bcast_S128_S1x128_1),
    StableHlo.unary main_v154 main_v155 (broadcastInDim S50000x128 ![0, 1] bcast_S1x128_S50000x128_0_1),
    StableHlo.binary main_v149 main_v155 main_v156 subf,
    StableHlo.nullary main_cst_26 (constant S_ .f32 0x3727C5AC#32),
    StableHlo.unary main_cst_26 main_v157 (broadcastInDim S128 ![] bcast_S_S128),
    StableHlo.binary main_v153 main_v157 main_v158 addf,
    StableHlo.unary main_v158 main_v159 Host.rsqrt,
    StableHlo.unary main_v159 main_v160 (broadcastInDim S1x128 ![1] bcast_S128_S1x128_1),
    StableHlo.unary main_v160 main_v161 (broadcastInDim S50000x128 ![0, 1] bcast_S1x128_S50000x128_0_1),
    StableHlo.binary main_v156 main_v161 main_v162 mulf,
    StableHlo.unary main_arg3 main_v163 (extractStridedSlice S1x128 ![2, 0] · slices_S3x128_S1x128_2_0),
    StableHlo.reshape main_v163 main_v164 rfl shapeCasts_S1x128_S128,
    StableHlo.unary main_v164 main_v165 (broadcastInDim S1x128 ![1] bcast_S128_S1x128_1),
    StableHlo.unary main_v165 main_v166 (broadcastInDim S50000x128 ![0, 1] bcast_S1x128_S50000x128_0_1),
    StableHlo.binary main_v162 main_v166 main_v167 mulf,
    StableHlo.unary main_arg4 main_v168 (extractStridedSlice S1x128 ![2, 0] · slices_S3x128_S1x128_2_0),
    StableHlo.reshape main_v168 main_v169 rfl shapeCasts_S1x128_S128,
    StableHlo.unary main_v169 main_v170 (broadcastInDim S1x128 ![1] bcast_S128_S1x128_1),
    StableHlo.unary main_v170 main_v171 (broadcastInDim S50000x128 ![0, 1] bcast_S1x128_S50000x128_0_1),
    StableHlo.binary main_v167 main_v171 main_v172 addf ]

abbrev opsL2 : List (HloOp τ sig (Elt F)) :=
  opsL2a ++ (opsL2b ++ (opsL2c ++ (opsL2d ++ (opsL2e ++ (opsL2f ++ opsL2g)))))

theorem opsL2_cut : (opsL2 : List (HloOp τ sig (Elt F))) = opsL2a ++ (opsL2b ++ (opsL2c ++ (opsL2d ++ (opsL2e ++ (opsL2f ++ (opsL2g)))))) := rfl

abbrev opsH : List (HloOp τ sig (Elt F)) :=
  [ StableHlo.nullary main_cst_27 (constant S_ .f32 0x3F800000#32),
    StableHlo.unary main_cst_27 main_v173 (broadcastInDim S50000 ![] bcast_S_S50000),
    StableHlo.nullary main_cst_28 (constant S_ .f32 0x00000000#32),
    StableHlo.unary main_cst_28 main_v174 (broadcastInDim S128 ![] bcast_S_S128),
    StableHlo.unary main_arg10 main_v175 (broadcastInDim S50000x1 ![0] bcast_S50000_S50000x1_0),
    StableHlo.ternary main_v174 main_v175 main_v173 main_v176 (fun x i u => Host.scatterAdd scatter_S128_S50000x1_S50000_n_0_0_1 x i u),
    StableHlo.nullary main_cst_29 (constant S_ .f32 0x00000000#32),
    StableHlo.unary main_cst_29 main_v177 (broadcastInDim S128x128 ![] bcast_S_S128x128),
    StableHlo.unary main_arg10 main_v178 (broadcastInDim S50000x1 ![0] bcast_S50000_S50000x1_0),
    StableHlo.ternary main_v177 main_v178 main_v172 main_v179 (fun x i u => Host.scatterAdd scatter_S128x128_S50000x1_S50000x128_1_0_0_1 x i u),
    StableHlo.nullary main_cst_30 (constant S_ .f32 0x3F800000#32),
    StableHlo.unary main_cst_30 main_v180 (broadcastInDim S128 ![] bcast_S_S128),
    StableHlo.binary main_v176 main_v180 main_v181 maximumf,
    StableHlo.unary main_v181 main_v182 (broadcastInDim S128x1 ![0] bcast_S128_S128x1_0),
    StableHlo.unary main_v182 main_v183 (broadcastInDim S128x128 ![0, 1] bcast_S128x1_S128x128_0_1),
    StableHlo.binary main_v179 main_v183 main_v184 Host.divf,
    StableHlo.binary main_v184 main_arg5 main_v185 (fun l r => Host.dotGeneral dot_S128x128_S128x128_S128x128_1_0_0_1_n_n none l r),
    StableHlo.unary main_arg6 main_v186 (broadcastInDim S1x128 ![1] bcast_S128_S1x128_1),
    StableHlo.unary main_v186 main_v187 (broadcastInDim S128x128 ![0, 1] bcast_S1x128_S128x128_0_1),
    StableHlo.binary main_v185 main_v187 main_v188 addf,
    StableHlo.TRef.nullary main_call6.cst (constant S_ .f32 0x00000000#32),
    StableHlo.TRef.unary main_call6.cst main_call6.v0 (broadcastInDim S128x128 ![] bcast_S_S128x128),
    StableHlo.TRef.binary ((.of main_v188) : StableHlo.TRef sig ⟨S128x128, .f32⟩) main_call6.v0 main_call6.v1 maximumf,
    StableHlo.binary main_v189 main_arg7 main_v190 (fun l r => Host.dotGeneral dot_S128x128_S128x2_S128x2_1_0_0_1_n_n none l r),
    StableHlo.unary main_arg8 main_v191 (broadcastInDim S1x2 ![1] bcast_S2_S1x2_1),
    StableHlo.unary main_v191 main_v192 (broadcastInDim S128x2 ![0, 1] bcast_S1x2_S128x2_0_1),
    StableHlo.binary main_v190 main_v192 main_v193 addf,
    StableHlo.TRef.nullary main_call7.cst (constant S_ .f32 0xFF800000#32),
    StableHlo.TRef.binary ((.of main_v193) : StableHlo.TRef sig ⟨S128x2, .f32⟩) main_call7.cst main_call7.v0 (fun x v => Host.reduce FloatOps.maximumf x v reducesTo_S128x2_S128_d1 h_S_),
    StableHlo.TRef.nullary main_call7.cst_0 (constant S_ .f32 0xFF800000#32),
    StableHlo.TRef.unary main_call7.cst_0 main_call7.v1 (broadcastInDim S128 ![] bcast_S_S128),
    StableHlo.TRef.binary main_call7.v1 main_call7.v0 main_call7.v2 maximumf,
    StableHlo.TRef.unary main_call7.v2 main_call7.v3 (broadcastInDim S128x1 ![0] bcast_S128_S128x1_0),
    StableHlo.TRef.unary main_call7.v3 main_call7.v4 (broadcastInDim S128x2 ![0, 1] bcast_S128x1_S128x2_0_1),
    StableHlo.TRef.binary ((.of main_v193) : StableHlo.TRef sig ⟨S128x2, .f32⟩) main_call7.v4 main_call7.v5 subf,
    StableHlo.TRef.unary main_call7.v5 main_call7.v6 Host.exp,
    StableHlo.TRef.nullary main_call7.cst_1 (constant S_ .f32 0x00000000#32),
    StableHlo.TRef.binary main_call7.v6 main_call7.cst_1 main_call7.v7 (fun x v => Host.reduceAdd x v reducesTo_S128x2_S128_d1 h_S_),
    StableHlo.TRef.unary main_call7.v7 main_call7.v8 (broadcastInDim S128x1 ![0] bcast_S128_S128x1_0),
    StableHlo.TRef.unary main_call7.v8 main_call7.v9 Host.log,
    StableHlo.TRef.unary main_call7.v9 main_call7.v10 (broadcastInDim S128x2 ![0, 1] bcast_S128x1_S128x2_0_1),
    StableHlo.TRef.binary main_call7.v5 main_call7.v10 main_call7.v11 subf ]

abbrev ops : List (HloOp τ sig (Elt F)) :=
  opsP ++ (opsL0 ++ (opsL1 ++ (opsL2 ++ opsH)))

theorem ops_split : (ops : List (HloOp τ sig (Elt F))) = opsP ++ (opsL0 ++ (opsL1 ++ (opsL2 ++ opsH))) := rfl

end Cert.ReferenceIdeal.Val

end
-- ==== Proof.RRun.lean ====
import proofs.«427771_j81243601371607_1_alg».proof.Proof.RefOps
import Idealize.ShloMosaic.Lib.StableHlo.Run

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
-- the program is the straight line of its operations, every call unfolded where it is made
theorem main_eq (c : Dev nD) : main (F := F) c = seq ops := by
  simp only [ops, opsL0, opsL1, opsL2, seq_append, main, main_part0, main_part1, main_part2, main_part3, fn_elu.body, fn_where.body,
    fn_where_0.body, fn_where_1.body, fn_var.body, fn_relu.body, fn_log_softmax.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, opsL0, opsL1, opsL2, List.forall_append, opsP, opsL0a, opsL0b, opsL0c, opsL0d, opsL0e, opsL0f, opsL0g, opsL1a, opsL1b, opsL1c, opsL1d, opsL1e, opsL1f, opsL1g, opsL2a, opsL2b, opsL2c, opsL2d, opsL2e, opsL2f, opsL2g, opsH, List.Forall,
    nullary_bufs_sub, unary_bufs_sub, binary_bufs_sub, ternary_bufs_sub, reshape_bufs_sub, and_self]

theorem ref_run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Val

end
-- ==== Proof.RReadP.lean ====
import proofs.«427771_j81243601371607_1_alg».proof.Proof.RefOps
import proofs.«427771_j81243601371607_1_alg».proof.Proof.Prelude
import proofs.«427771_j81243601371607_1_alg».proof.Proof.Spec
import Idealize.ShloMosaic.PureOps.Ideal
import Idealize.ShloMosaic.PureOps.Ideal.Laws
import Idealize.ShloMosaic.Lib.StableHlo.Run
import Idealize.ShloMosaic.Lib.ValueIdx
import Idealize.ShloMosaic.Lib.Pipeline.Value

noncomputable section

namespace Cert.ReferenceIdeal.Val

open Cert.ReferenceIdeal Cert.ReferenceIdeal.Gen Idealize.ShloMosaic Idealize.ShloMosaic.TcCoe Idealize.ShloMosaic.ValueIdx Idealize.SL.Sem Idealize.ShloMosaic.StableHlo

variable (U : Valuation τ sig (Elt Ideal))

def wP : List (Ref sig .tc) := [main_v0, main_v1, main_v2, main_v3, main_cst, main_v4, main_cst_0, main_v5, main_v6, main_v7, main_cst_1, main_v8, main_v9, main_cst_2, main_v10, main_v11, main_c, main_v12, main_v13, main_c_3, main_v14, main_v15, main_v16, main_v17, main_v18, main_c_4, main_v19, main_v20, main_c_5, main_v21, main_v22, main_v23, main_v24, main_v25, main_v26, main_v27, main_v28]

theorem opsP_writes : (opsP (F := Ideal)).Forall fun op => op.writes ⊆ (wP.map (Proc.devRef (τ := τ) .tc)).toFinset := by
  simp only [opsP, List.Forall, nullary_writes, unary_writes, binary_writes, ternary_writes, reshape_writes,
    Finset.singleton_subset_iff, List.mem_toFinset, List.mem_map]
  repeat' apply And.intro
  all_goals exact ⟨_, by decide, rfl⟩

theorem p_src : after (opsP (F := Ideal)) U (Proc.devRef .tc main_v1) = Gcn.srcW (U (Proc.devRef .tc main_arg9)) := by
  after_results_simp
  rfl
theorem p_dst : after (opsP (F := Ideal)) U (Proc.devRef .tc main_v3) = Gcn.dstW (U (Proc.devRef .tc main_arg9)) := by
  after_results_simp
  rfl
theorem p_norm : after (opsP (F := Ideal)) U (Proc.devRef .tc main_v26) = Gcn.normOf (U (Proc.devRef .tc main_arg9)) := by
  after_results_simp
  rfl
theorem p_sn : after (opsP (F := Ideal)) U (Proc.devRef .tc main_v28) = Gcn.snCol (U (Proc.devRef .tc main_arg9)) := by
  after_results_simp
  rfl

end Cert.ReferenceIdeal.Val

end
-- ==== Proof.RReadLayer.lean ====
import proofs.«427771_j81243601371607_1_alg».proof.Proof.RefOps
import proofs.«427771_j81243601371607_1_alg».proof.Proof.Prelude
import proofs.«427771_j81243601371607_1_alg».proof.Proof.Spec
import Idealize.ShloMosaic.PureOps.Ideal
import Idealize.ShloMosaic.PureOps.Ideal.Laws
import Idealize.ShloMosaic.Lib.StableHlo.Run
import Idealize.ShloMosaic.Lib.ValueIdx
import Idealize.ShloMosaic.Lib.Pipeline.Value
import Idealize.ShloMosaic.Lib.ValueLayout
import Idealize.ShloMosaic.Lib.StackMember
import Idealize.ShloMosaic.Lib.KernelVsHost

noncomputable section

namespace Cert.ReferenceIdeal.Val

open Cert.ReferenceIdeal Cert.ReferenceIdeal.Gen Idealize.ShloMosaic Idealize.ShloMosaic.TcCoe Idealize.ShloMosaic.ValueIdx Idealize.SL.Sem Idealize.ShloMosaic.StableHlo

theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

-- Running one list of operations and then another is running their concatenation.
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

section Bcast
variable {α : Type} {m n : ℕ}

-- An index into an axis of extent 1 is 0.
theorem fin_read (q : Fin n) : q.val = if n = 1 then 0 else q.val := by
  have := q.isLt
  split <;> omega

theorem bc_vec_row (h : (⟨1, ![n]⟩ : Shape).BroadcastsInDim ⟨2, ![1, n]⟩ ![1]) (x : (⟨1, ![n]⟩ : Shape).Idx → α) (z : Fin 1) (q : Fin n) :
    broadcastInDim ⟨2, ![1, n]⟩ ![1] h x (ix2 z q) = x (ix1 q) :=
  broadcastInDim_apply _ h x _ (ix1 q) fun a => match a with | ⟨0, _⟩ => fin_read q

theorem bc_vec_col (h : (⟨1, ![n]⟩ : Shape).BroadcastsInDim ⟨2, ![n, 1]⟩ ![0]) (x : (⟨1, ![n]⟩ : Shape).Idx → α) (p : Fin n) (z : Fin 1) :
    broadcastInDim ⟨2, ![n, 1]⟩ ![0] h x (ix2 p z) = x (ix1 p) :=
  broadcastInDim_apply _ h x _ (ix1 p) fun a => match a with | ⟨0, _⟩ => fin_read p

theorem bc_col (h : (⟨2, ![m, 1]⟩ : Shape).BroadcastsInDim ⟨2, ![m, n]⟩ ![0, 1]) (x : (⟨2, ![m, 1]⟩ : Shape).Idx → α) (p : Fin m) (q : Fin n) :
    broadcastInDim ⟨2, ![m, n]⟩ ![0, 1] h x (ix2 p q) = x (ix2 p 0) :=
  broadcastInDim_apply _ h x _ (ix2 p 0) fun a => match a with | ⟨0, _⟩ => fin_read p | ⟨1, _⟩ => rfl

end Bcast

abbrev MatV : Type := FVec Ideal S50000x128 .f32

def overRows (v : FVec Ideal S128 .f32) : MatV :=
  broadcastInDim S50000x128 ![0, 1] bcast_S1x128_S50000x128_0_1 (broadcastInDim S1x128 ![1] bcast_S128_S1x128_1 v)

theorem overRows_apply (v : FVec Ideal S128 .f32) (n : Fin 50000) (d : Fin 128) : overRows v (ix2 n d) = v (ix1 d) :=
  (broadcastInDim_oneRow_apply _ _ n d).trans (bc_vec_row _ v 0 d)

theorem select_ogt {α : Type} (p z : EReal) (a b : α) :
    Scalar.select (Ideal.cmp .ogt p z) a b = if z < p then a else b := by
  unfold Scalar.select Ideal.cmp
  by_cases h : z < p <;> simp [h]

def eluV (p : MatV) : MatV :=
  select (cmpf .ogt p (broadcastInDim S50000x128 ![] bcast_S_S50000x128 (constant (F := Ideal) S_ .f32 0x00000000#32))) p
    (mulf (broadcastInDim S50000x128 ![] bcast_S_S50000x128 (constant (F := Ideal) S_ .f32 0x3F800000#32))
      (Host.expm1
        (select (cmpf .ogt p (broadcastInDim S50000x128 ![] bcast_S_S50000x128 (constant (F := Ideal) S_ .f32 0x00000000#32)))
          (broadcastInDim S50000x128 ![] bcast_S_S50000x128 (id (constant (F := Ideal) S_ .f32 0x00000000#32))) p)))

theorem eluV_eq (p : MatV) : eluV p = fun i => Gcn.eluR (p i) := by
  funext i
  show Scalar.select (Ideal.cmp .ogt (p i) Gcn.cZero) (p i)
      (Gcn.cOne * (Ideal.exp (Scalar.select (Ideal.cmp .ogt (p i) Gcn.cZero) Gcn.cZero (p i)) - 1)) = _
  rw [select_ogt, select_ogt]
  rfl

-- Reducing over the rows from zero gives each column's sum.
theorem colSumV (e : MatV) (d : Fin 128) :
    Host.reduceAdd e (constant (F := Ideal) S_ .f32 0x00000000#32) reducesTo_S50000x128_S128_d0 h_S_ (ix1 d) = Gcn.colSum e d := by
  show Ideal.hostReduceAdd reducesTo_S50000x128_S128_d0 e (Ideal.ofBits .f32 0x00000000#32) (ix1 d) = _
  rw [Ideal.hostReduceAdd_single reducesTo_S50000x128_S128_d0 (by decide), Ideal.ofBits_zero_f32, zero_add]
  exact Finset.sum_congr rfl fun k _ => congrArg e (funext fun a => Fin.ext (by
    match a with
    | ⟨0, _⟩ => rfl
    | ⟨1, _⟩ => rfl))

def meanV (e : MatV) : FVec Ideal S128 .f32 :=
  Host.divf (Host.reduceAdd e (constant (F := Ideal) S_ .f32 0x00000000#32) reducesTo_S50000x128_S128_d0 h_S_)
    (broadcastInDim S128 ![] bcast_S_S128 (constant (F := Ideal) S_ .f32 0x47435000#32))

theorem meanV_apply (e : MatV) (d : Fin 128) : meanV e (ix1 d) = Gcn.meanOf e d :=
  congrArg (Ideal.div · Gcn.cN) (colSumV e d)

def dofV : FVec Ideal S_ .f32 :=
  subf (constant (F := Ideal) S_ .f32 0x47435000#32) (sitofp .f32 (constantI S_ 32 0#32))

theorem dofV_eq : dofV ix0 = Gcn.cN - 0 := by
  show Gcn.cN - (((0#32 : BitVec 32).toInt : ℝ) : EReal) = _
  have h0 : (0#32 : BitVec 32).toInt = 0 := by decide
  rw [h0, Int.cast_zero, EReal.coe_zero]

def devV (e : MatV) : MatV :=
  subf e
    (broadcastInDim S50000x128 ![0, 1] bcast_S1x128_S50000x128_0_1
      (Host.divf
        (broadcastInDim S1x128 ![1] bcast_S128_S1x128_1
          (Host.reduceAdd e (constant (F := Ideal) S_ .f32 0x00000000#32) reducesTo_S50000x128_S128_d0 h_S_))
        (broadcastInDim S1x128 ![] bcast_S_S1x128 (constant (F := Ideal) S_ .f32 0x47435000#32))))

theorem devV_apply (e : MatV) (n : Fin 50000) (d : Fin 128) : devV e (ix2 n d) = e (ix2 n d) - Gcn.meanOf e d := by
  unfold devV
  rw [subf_apply, broadcastInDim_oneRow_apply]
  exact congrArg (e (ix2 n d) - Ideal.div · Gcn.cN) ((bc_vec_row _ _ 0 d).trans (colSumV e d))

def varV (e : MatV) : FVec Ideal S128 .f32 :=
  select (broadcastInDim S128 ![] bcast_S_S128 (cmpf .ogt dofV (constant (F := Ideal) S_ .f32 0x00000000#32)))
    (Host.divf
      (Host.reduceAdd (mulf (devV e) (devV e)) (constant (F := Ideal) S_ .f32 0x00000000#32)
        reducesTo_S50000x128_S128_d0 h_S_)
      (broadcastInDim S128 ![] bcast_S_S128 dofV))
    (broadcastInDim S128 ![] bcast_S_S128 (id (constant (F := Ideal) S_ .f32 0x7FC00000#32)))

theorem sqDev_eq (e : MatV) :
    mulf (devV e) (devV e) = fun i => (e i - Gcn.meanOf e (i 1)) * (e i - Gcn.meanOf e (i 1)) := by
  funext i
  obtain ⟨n, d, rfl⟩ : ∃ (n : Fin 50000) (d : Fin 128), i = ix2 n d := ⟨i 0, i 1, eq_ix2 i⟩
  rw [mulf_apply, devV_apply]

theorem varV_apply (e : MatV) (d : Fin 128) : varV e (ix1 d) = Gcn.varR e d := by
  show Scalar.select (Ideal.cmp .ogt (dofV ix0) Gcn.cZero)
      (Ideal.div (Host.reduceAdd (mulf (devV e) (devV e)) (constant (F := Ideal) S_ .f32 0x00000000#32)
        reducesTo_S50000x128_S128_d0 h_S_ (ix1 d)) (dofV ix0)) Gcn.cNaN = _
  rw [select_ogt, colSumV, sqDev_eq, dofV_eq]
  rfl

theorem istd_apply (v : FVec Ideal S128 .f32) (d : Fin 128) :
    Host.rsqrt (addf v (broadcastInDim S128 ![] bcast_S_S128 (constant (F := Ideal) S_ .f32 0x3727C5AC#32))) (ix1 d)
      = Ideal.rsqrt (v (ix1 d) + Gcn.cEps) := rfl

section Layer

variable {o : ℕ} (h2 : S3x128.Slices ![o, 0] S1x128) (h3 : S3x128x128.Slices ![o, 0, 0] S1x128x128) (l : Fin 3) (hl : l.val = o)
include hl

def rowV (B : FVec Ideal S3x128 .f32) : FVec Ideal S128 .f32 :=
  shapeCast S128 (extractStridedSlice S1x128 ![o, 0] B h2) shapeCasts_S1x128_S128

theorem rowV_apply (B : FVec Ideal S3x128 .f32) (d : Fin 128) : rowV h2 B (ix1 d) = Gcn.rowOf B l d :=
  (shapeCast_1a_a_apply _ _ d).trans (slice2_axis0_apply o B h2 (0 : Fin 1) d l hl)

def hV (x : MatV) (W : FVec Ideal S3x128x128 .f32) : MatV :=
  Host.dotGeneral dot_S50000x128_S128x128_S50000x128_1_0_0_1_n_n none x
    (shapeCast S128x128 (extractStridedSlice S1x128x128 ![o, 0, 0] W h3) shapeCasts_S1x128x128_S128x128)

theorem hV_eq (x : MatV) (W : FVec Ideal S3x128x128 .f32) : hV h3 x W = Gcn.mm x (Gcn.wOf W l) := by
  funext i
  obtain ⟨p, q, rfl⟩ : ∃ (p : Fin 50000) (q : Fin 128), i = ix2 p q := ⟨i 0, i 1, eq_ix2 i⟩
  refine (StackMember.dotGeneral_plain_apply none x _ p q).trans ?_
  refine Finset.sum_congr rfl fun c _ => ?_
  refine congrArg (x (ix2 p c) * ·) ?_
  refine (shapeCast_1ab_ab_apply _ _ c q).trans ?_
  exact extractStridedSlice_apply _ W _ _ (ix3 l c q) fun a => by
    match a with
    | ⟨0, _⟩ => exact hl
    | ⟨1, _⟩ => exact (Nat.zero_add _).symm
    | ⟨2, _⟩ => exact (Nat.zero_add _).symm

def preV (a h : MatV) (s : FVec Ideal S50000x1 .f32) (B : FVec Ideal S3x128 .f32) : MatV :=
  addf
    (addf a
      (mulf (broadcastInDim S50000x128 ![0, 1] bcast_S50000x1_S50000x128_0_1 s) h))
    (overRows (rowV h2 B))

theorem preV_eq (a h : MatV) (s : FVec Ideal S50000x1 .f32) (B : FVec Ideal S3x128 .f32) :
    preV h2 a h s B = Gcn.pre a (fun n => s (ix2 n 0)) h (Gcn.rowOf B l) := by
  funext i
  obtain ⟨n, d, rfl⟩ : ∃ (n : Fin 50000) (d : Fin 128), i = ix2 n d := ⟨i 0, i 1, eq_ix2 i⟩
  unfold preV
  rw [addf_apply, addf_apply, mulf_apply, bc_col, overRows_apply, rowV_apply h2 l hl]
  rfl

def bnG (e : MatV) (mu va : FVec Ideal S128 .f32) (G Be : FVec Ideal S3x128 .f32) : MatV :=
  addf
    (mulf
      (mulf
        (subf e (overRows mu))
        (overRows (Host.rsqrt
          (addf va (broadcastInDim S128 ![] bcast_S_S128 (constant (F := Ideal) S_ .f32 0x3727C5AC#32))))))
      (overRows (rowV h2 G)))
    (overRows (rowV h2 Be))

theorem bnG_eq (e : MatV) (G Be : FVec Ideal S3x128 .f32) :
    bnG h2 e (meanV e) (varV e) G Be
      = Gcn.bnorm e (Gcn.meanOf e) (fun d => Ideal.rsqrt (Gcn.varR e d + Gcn.cEps)) (Gcn.rowOf G l) (Gcn.rowOf Be l) := by
  funext i
  obtain ⟨n, d, rfl⟩ : ∃ (n : Fin 50000) (d : Fin 128), i = ix2 n d := ⟨i 0, i 1, eq_ix2 i⟩
  unfold bnG
  rw [addf_apply, mulf_apply, mulf_apply, subf_apply, overRows_apply, overRows_apply, overRows_apply, overRows_apply,
    meanV_apply, istd_apply, varV_apply, rowV_apply h2 l hl, rowV_apply h2 l hl]
  rfl

variable {a b c d e f g : List (HloOp τ sig (Elt Ideal))} {w : List (Ref sig .tc)}
  {rx rh ra rp re ro : Valuation τ sig (Elt Ideal) → MatV} {rm rv : Valuation τ sig (Elt Ideal) → FVec Ideal S128 .f32}

-- Seven consecutive stretches, each producing one named array from earlier ones and leaving those alone, compose to the layer.
theorem layer_read
    (hw : (a ++ (b ++ (c ++ (d ++ (e ++ (f ++ g)))))).Forall fun op => op.writes ⊆ (w.map (Proc.devRef (τ := τ) .tc)).toFinset)
    (hn : main_v1 ∉ w ∧ main_v3 ∉ w ∧ main_v26 ∉ w ∧ main_v28 ∉ w ∧ main_arg1 ∉ w ∧ main_arg2 ∉ w ∧ main_arg3 ∉ w ∧ main_arg4 ∉ w)
    (ha : ∀ W, rh (after a W) = hV h3 (rx W) (W (Proc.devRef .tc main_arg1)))
    (hb : ∀ W, ra (after b W)
      = Gcn.aggFrom (W (Proc.devRef .tc main_v1)) (W (Proc.devRef .tc main_v3)) (W (Proc.devRef .tc main_v26)) (rh W))
    (kb : ∀ W, rh (after b W) = rh W)
    (hc : ∀ W, rp (after c W) = preV h2 (ra W) (rh W) (W (Proc.devRef .tc main_v28)) (W (Proc.devRef .tc main_arg2)))
    (hd : ∀ W, re (after d W) = eluV (rp W))
    (he : ∀ W, rm (after e W) = meanV (re W))
    (ke : ∀ W, re (after e W) = re W)
    (hf : ∀ W, rv (after f W) = varV (re W))
    (kf : ∀ W, re (after f W) = re W)
    (kf' : ∀ W, rm (after f W) = rm W)
    (hg : ∀ W, ro (after g W)
      = bnG h2 (re W) (rm W) (rv W) (W (Proc.devRef .tc main_arg3)) (W (Proc.devRef .tc main_arg4)))
    (U : Valuation τ sig (Elt Ideal)) :
    ro (after (a ++ (b ++ (c ++ (d ++ (e ++ (f ++ g)))))) U)
      = Gcn.layerR (Gcn.aggFrom (U (Proc.devRef .tc main_v1)) (U (Proc.devRef .tc main_v3)) (U (Proc.devRef .tc main_v26)))
          (fun n => U (Proc.devRef .tc main_v28) (ix2 n 0)) (rx U) (Gcn.wOf (U (Proc.devRef .tc main_arg1)) l)
          (Gcn.rowOf (U (Proc.devRef .tc main_arg2)) l) (Gcn.rowOf (U (Proc.devRef .tc main_arg3)) l)
          (Gcn.rowOf (U (Proc.devRef .tc main_arg4)) l) := by
  simp only [List.forall_append] at hw
  obtain ⟨wa, wb, wc, wd, we, wf, wg⟩ := hw
  obtain ⟨n1, n3, n26, n28, m1, m2, m3, m4⟩ := hn
  have K := fun q hq r hr W => after_of_writes_sub (τ := τ) (Val := Elt Ideal) (W := w) (r := r) q W hq hr
  simp (disch := assumption) only [after_append, hg, hf, kf, kf', he, ke, hd, hc, hb, kb, ha, K]
  rw [bnG_eq h2 l hl, hV_eq h3 l hl, preV_eq h2 l hl, eluV_eq]
  rfl

end Layer

end Cert.ReferenceIdeal.Val

end
-- ==== Proof.RReadL0.lean ====
import proofs.«427771_j81243601371607_1_alg».proof.Proof.RReadLayer

noncomputable section

namespace Cert.ReferenceIdeal.Val

open Cert.ReferenceIdeal Cert.ReferenceIdeal.Gen Idealize.ShloMosaic Idealize.ShloMosaic.TcCoe Idealize.ShloMosaic.ValueIdx Idealize.SL.Sem Idealize.ShloMosaic.StableHlo

def wL0 : List (Ref sig .tc) :=
  [main_v29, main_v30, main_v31, main_c_6, main_v32, main_v33, main_c_7, main_v34, main_v35, main_v36, main_v37, main_v38, main_v39, main_v40, main_v41, main_cst_8, main_v42, main_v43, main_v44, main_v45, main_v46, main_v47, main_v48, main_v49, main_v50, main_v51, main_v52, main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v53, main_cst_9, main_v54, main_cst_10, main_v55, main_v56, main_c_11, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v57, main_v58, main_v59, main_v60, main_cst_12, main_v61, main_v62, main_v63, main_v64, main_v65, main_v66, main_v67, main_v68, main_v69, main_v70, main_v71, main_v72, main_v73, main_v74, main_v75, main_v76]

theorem opsL0_writes : (opsL0 (F := Ideal)).Forall fun op => op.writes ⊆ (wL0.map (Proc.devRef (τ := τ) .tc)).toFinset := by
  simp only [opsL0, opsL0a, opsL0b, opsL0c, opsL0d, opsL0e, opsL0f, opsL0g, List.cons_append, List.nil_append, List.Forall,
    nullary_writes, unary_writes, binary_writes, ternary_writes, reshape_writes]
  repeat' apply And.intro
  all_goals exact single_sub_of_mem (by decide)

variable (U : Valuation τ sig (Elt Ideal))

theorem l0_x :
    after (opsL0 (F := Ideal)) U (Proc.devRef .tc main_v76)
      = Gcn.layerR (Gcn.aggFrom (U (Proc.devRef .tc main_v1)) (U (Proc.devRef .tc main_v3)) (U (Proc.devRef .tc main_v26)))
          (fun n => U (Proc.devRef .tc main_v28) (ix2 n 0)) (U (Proc.devRef .tc main_arg0)) (Gcn.wOf (U (Proc.devRef .tc main_arg1)) 0)
          (Gcn.rowOf (U (Proc.devRef .tc main_arg2)) 0) (Gcn.rowOf (U (Proc.devRef .tc main_arg3)) 0) (Gcn.rowOf (U (Proc.devRef .tc main_arg4)) 0) :=
  layer_read slices_S3x128_S1x128_0_0 slices_S3x128x128_S1x128x128_0_0_0 0 rfl opsL0_writes (by decide)
    (rx := fun W => W (Proc.devRef .tc main_arg0)) (rh := fun W => W (Proc.devRef .tc main_v31)) (ra := fun W => W (Proc.devRef .tc main_v44))
    (rp := fun W => W (Proc.devRef .tc main_v52)) (re := fun W => W (Proc.devRef .tc main_v53)) (rm := fun W => W (Proc.devRef .tc main_v56))
    (rv := fun W => W (Proc.devRef .tc main_v57)) (ro := fun W => W (Proc.devRef .tc main_v76))
    (fun W => by after_results_simp; rfl) (fun W => by after_results_simp; rfl) (fun W => by after_results_simp)
    (fun W => by after_results_simp; rfl) (fun W => by after_results_simp; rfl) (fun W => by after_results_simp; rfl)
    (fun W => by after_results_simp) (fun W => by after_results_simp; rfl) (fun W => by after_results_simp)
    (fun W => by after_results_simp) (fun W => by after_results_simp; rfl) U

end Cert.ReferenceIdeal.Val

end
-- ==== Proof.RReadL1.lean ====
import proofs.«427771_j81243601371607_1_alg».proof.Proof.RReadLayer

noncomputable section

namespace Cert.ReferenceIdeal.Val

open Cert.ReferenceIdeal Cert.ReferenceIdeal.Gen Idealize.ShloMosaic Idealize.ShloMosaic.TcCoe Idealize.ShloMosaic.ValueIdx Idealize.SL.Sem Idealize.ShloMosaic.StableHlo

def wL1 : List (Ref sig .tc) :=
  [main_v77, main_v78, main_v79, main_c_13, main_v80, main_v81, main_c_14, main_v82, main_v83, main_v84, main_v85, main_v86, main_v87, main_v88, main_v89, main_cst_15, main_v90, main_v91, main_v92, main_v93, main_v94, main_v95, main_v96, main_v97, main_v98, main_v99, main_v100, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v101, main_cst_16, main_v102, main_cst_17, main_v103, main_v104, main_c_18, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v105, main_v106, main_v107, main_v108, main_cst_19, main_v109, main_v110, main_v111, main_v112, main_v113, main_v114, main_v115, main_v116, main_v117, main_v118, main_v119, main_v120, main_v121, main_v122, main_v123, main_v124]

theorem opsL1_writes : (opsL1 (F := Ideal)).Forall fun op => op.writes ⊆ (wL1.map (Proc.devRef (τ := τ) .tc)).toFinset := by
  simp only [opsL1, opsL1a, opsL1b, opsL1c, opsL1d, opsL1e, opsL1f, opsL1g, List.cons_append, List.nil_append, List.Forall,
    nullary_writes, unary_writes, binary_writes, ternary_writes, reshape_writes]
  repeat' apply And.intro
  all_goals exact single_sub_of_mem (by decide)

variable (U : Valuation τ sig (Elt Ideal))

theorem l1_x :
    after (opsL1 (F := Ideal)) U (Proc.devRef .tc main_v124)
      = Gcn.layerR (Gcn.aggFrom (U (Proc.devRef .tc main_v1)) (U (Proc.devRef .tc main_v3)) (U (Proc.devRef .tc main_v26)))
          (fun n => U (Proc.devRef .tc main_v28) (ix2 n 0)) (U (Proc.devRef .tc main_v76)) (Gcn.wOf (U (Proc.devRef .tc main_arg1)) 1)
          (Gcn.rowOf (U (Proc.devRef .tc main_arg2)) 1) (Gcn.rowOf (U (Proc.devRef .tc main_arg3)) 1) (Gcn.rowOf (U (Proc.devRef .tc main_arg4)) 1) :=
  layer_read slices_S3x128_S1x128_1_0 slices_S3x128x128_S1x128x128_1_0_0 1 rfl opsL1_writes (by decide)
    (rx := fun W => W (Proc.devRef .tc main_v76)) (rh := fun W => W (Proc.devRef .tc main_v79)) (ra := fun W => W (Proc.devRef .tc main_v92))
    (rp := fun W => W (Proc.devRef .tc main_v100)) (re := fun W => W (Proc.devRef .tc main_v101)) (rm := fun W => W (Proc.devRef .tc main_v104))
    (rv := fun W => W (Proc.devRef .tc main_v105)) (ro := fun W => W (Proc.devRef .tc main_v124))
    (fun W => by after_results_simp; rfl) (fun W => by after_results_simp; rfl) (fun W => by after_results_simp)
    (fun W => by after_results_simp; rfl) (fun W => by after_results_simp; rfl) (fun W => by after_results_simp; rfl)
    (fun W => by after_results_simp) (fun W => by after_results_simp; rfl) (fun W => by after_results_simp)
    (fun W => by after_results_simp) (fun W => by after_results_simp; rfl) U

end Cert.ReferenceIdeal.Val

end
-- ==== Proof.RReadL2.lean ====
import proofs.«427771_j81243601371607_1_alg».proof.Proof.RReadLayer

noncomputable section

namespace Cert.ReferenceIdeal.Val

open Cert.ReferenceIdeal Cert.ReferenceIdeal.Gen Idealize.ShloMosaic Idealize.ShloMosaic.TcCoe Idealize.ShloMosaic.ValueIdx Idealize.SL.Sem Idealize.ShloMosaic.StableHlo

def wL2 : List (Ref sig .tc) :=
  [main_v125, main_v126, main_v127, main_c_20, main_v128, main_v129, main_c_21, main_v130, main_v131, main_v132, main_v133, main_v134, main_v135, main_v136, main_v137, main_cst_22, main_v138, main_v139, main_v140, main_v141, main_v142, main_v143, main_v144, main_v145, main_v146, main_v147, main_v148, main_call4_cst, main_call4_v0, main_call4_v1, main_call4_cst_0, main_call4_v2, main_call4_v3, main_call4_cst_1, main_call4_call0_v0, main_call4_call0_v1, main_call4_v4, main_call4_v5, main_call4_cst_2, main_call4_v6, main_call4_v7, main_v149, main_cst_23, main_v150, main_cst_24, main_v151, main_v152, main_c_25, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v153, main_v154, main_v155, main_v156, main_cst_26, main_v157, main_v158, main_v159, main_v160, main_v161, main_v162, main_v163, main_v164, main_v165, main_v166, main_v167, main_v168, main_v169, main_v170, main_v171, main_v172]

theorem opsL2_writes : (opsL2 (F := Ideal)).Forall fun op => op.writes ⊆ (wL2.map (Proc.devRef (τ := τ) .tc)).toFinset := by
  simp only [opsL2, opsL2a, opsL2b, opsL2c, opsL2d, opsL2e, opsL2f, opsL2g, List.cons_append, List.nil_append, List.Forall,
    nullary_writes, unary_writes, binary_writes, ternary_writes, reshape_writes]
  repeat' apply And.intro
  all_goals exact single_sub_of_mem (by decide)

variable (U : Valuation τ sig (Elt Ideal))

theorem l2_x :
    after (opsL2 (F := Ideal)) U (Proc.devRef .tc main_v172)
      = Gcn.layerR (Gcn.aggFrom (U (Proc.devRef .tc main_v1)) (U (Proc.devRef .tc main_v3)) (U (Proc.devRef .tc main_v26)))
          (fun n => U (Proc.devRef .tc main_v28) (ix2 n 0)) (U (Proc.devRef .tc main_v124)) (Gcn.wOf (U (Proc.devRef .tc main_arg1)) 2)
          (Gcn.rowOf (U (Proc.devRef .tc main_arg2)) 2) (Gcn.rowOf (U (Proc.devRef .tc main_arg3)) 2) (Gcn.rowOf (U (Proc.devRef .tc main_arg4)) 2) :=
  layer_read slices_S3x128_S1x128_2_0 slices_S3x128x128_S1x128x128_2_0_0 2 rfl opsL2_writes (by decide)
    (rx := fun W => W (Proc.devRef .tc main_v124)) (rh := fun W => W (Proc.devRef .tc main_v127)) (ra := fun W => W (Proc.devRef .tc main_v140))
    (rp := fun W => W (Proc.devRef .tc main_v148)) (re := fun W => W (Proc.devRef .tc main_v149)) (rm := fun W => W (Proc.devRef .tc main_v152))
    (rv := fun W => W (Proc.devRef .tc main_v153)) (ro := fun W => W (Proc.devRef .tc main_v172))
    (fun W => by after_results_simp; rfl) (fun W => by after_results_simp; rfl) (fun W => by after_results_simp)
    (fun W => by after_results_simp; rfl) (fun W => by after_results_simp; rfl) (fun W => by after_results_simp; rfl)
    (fun W => by after_results_simp) (fun W => by after_results_simp; rfl) (fun W => by after_results_simp)
    (fun W => by after_results_simp) (fun W => by after_results_simp; rfl) U

end Cert.ReferenceIdeal.Val

end
-- ==== Proof.LibIndexRead.lean ====
import Idealize.ShloMosaic.PureOps.Ideal
import Idealize.ShloMosaic.Lib.ValueIdx

noncomputable section

namespace Cert.Sage.IndexRead

open Idealize.ShloMosaic Idealize.ShloMosaic.ValueIdx

private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have := h a
      rw [← hi]
      simp only
      omega
    · intro hi
      funext a
      apply Fin.ext
      have := hi a
      simp only
      omega
  · rename_i h
    constructor
    · intro hi; cases hi
    · intro hi
      exact absurd (fun a => by have := hi a; have := (i a).isLt; constructor <;> omega) h

section Vec
variable {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
include h1 h2 h3 h4

private theorem vec_start (idx : (⟨2, ![E, 1]⟩ : Shape).Idx → BitVec 32) (j : (⟨1, ![E]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

private theorem vec_window (j : (⟨1, ![E]⟩ : Shape).Idx) : d.window j 0 = 0 := by
  obtain ⟨uw, iw, sd, iv, wf⟩ := d
  simp only at h1 h2 h3 h4
  subst h1 h2 h3 h4
  rfl

private theorem vec_lands (idx : (⟨2, ![E, 1]⟩ : Shape).Idx → BitVec 32) (j : (⟨1, ![E]⟩ : Shape).Idx) (p : Fin N) :
    d.resultIdx? j idx = some (ix1 p) ↔ (idx (ix2 (j 0) 0)).toInt = (p.val : Int) := by
  rw [resultIdx?_eq_some_iff]
  constructor
  · intro h
    have h0 := h 0
    rw [vec_start d h1 h2 h3 h4, vec_window d h1 h2 h3 h4, Nat.cast_zero, add_zero] at h0
    exact h0
  · intro h a
    obtain rfl : a = 0 := Subsingleton.elim _ _
    rw [vec_start d h1 h2 h3 h4, vec_window d h1 h2 h3 h4, Nat.cast_zero, add_zero]
    exact h

end Vec

theorem scatterAdd_vec {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : (⟨2, ![E, 1]⟩ : Shape).Idx → BitVec 32)
    (upd : (⟨1, ![E]⟩ : Shape).Idx → EReal) (p : Fin N) :
    Ideal.hostScatterAdd d x idx upd (ix1 p)
      = x (ix1 p) + ∑ e ∈ Finset.univ.filter (fun e : Fin E => (idx (ix2 e 0)).toInt = (p.val : Int)), upd (ix1 e) := by
  unfold Ideal.hostScatterAdd
  congr 1
  refine Finset.sum_nbij' (fun j => j 0) (fun e => ix1 e) ?_ ?_ ?_ ?_ ?_
  · intro j hj
    exact Finset.mem_filter.mpr ⟨Finset.mem_univ _, (vec_lands d h1 h2 h3 h4 idx j p).mp (Finset.mem_filter.mp hj).2⟩
  · intro e he
    exact Finset.mem_filter.mpr ⟨Finset.mem_univ _, (vec_lands d h1 h2 h3 h4 idx (ix1 e) p).mpr (Finset.mem_filter.mp he).2⟩
  · intro j _
    exact (eq_ix1 j).symm
  · intro e _
    rfl
  · intro j _
    exact congrArg upd (eq_ix1 j)

section Rows
variable {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
include h1 h2 h3 h4

private theorem rows_start0 (idx : (⟨2, ![E, 1]⟩ : Shape).Idx → BitVec 32) (j : (⟨2, ![E, D]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

private theorem rows_start1 (idx : (⟨2, ![E, 1]⟩ : Shape).Idx → BitVec 32) (j : (⟨2, ![E, D]⟩ : Shape).Idx) :
    d.start j idx 1 = 0 := by
  obtain ⟨uw, iw, sd, iv, wf⟩ := d
  simp only at h1 h2 h3 h4
  subst h1 h2 h3 h4
  rfl

private theorem rows_window0 (j : (⟨2, ![E, D]⟩ : Shape).Idx) : d.window j 0 = 0 := by
  obtain ⟨uw, iw, sd, iv, wf⟩ := d
  simp only at h1 h2 h3 h4
  subst h1 h2 h3 h4
  rfl

private theorem rows_window1 (j : (⟨2, ![E, D]⟩ : Shape).Idx) : d.window j 1 = (j 1).val := by
  obtain ⟨uw, iw, sd, iv, wf⟩ := d
  simp only at h1 h2 h3 h4
  subst h1 h2 h3 h4
  rfl

private theorem rows_lands (idx : (⟨2, ![E, 1]⟩ : Shape).Idx → BitVec 32) (j : (⟨2, ![E, D]⟩ : Shape).Idx)
    (p : Fin N) (q : Fin D) :
    d.resultIdx? j idx = some (ix2 p q) ↔ (idx (ix2 (j 0) 0)).toInt = (p.val : Int) ∧ j 1 = q := by
  rw [resultIdx?_eq_some_iff]
  constructor
  · intro h
    have h0 := h 0
    have hc := h 1
    rw [rows_start0 d h1 h2 h3 h4, rows_window0 d h1 h2 h3 h4, Nat.cast_zero, add_zero] at h0
    rw [rows_start1 d h1 h2 h3 h4, rows_window1 d h1 h2 h3 h4, zero_add] at hc
    exact ⟨h0, Fin.ext (Int.ofNat_inj.mp hc)⟩
  · rintro ⟨h0, hq⟩
    have f0 : d.start j idx 0 + (d.window j 0 : Int) = (p.val : Int) := by
      rw [rows_start0 d h1 h2 h3 h4, rows_window0 d h1 h2 h3 h4, Nat.cast_zero, add_zero]
      exact h0
    have f1 : d.start j idx 1 + (d.window j 1 : Int) = (q.val : Int) := by
      rw [rows_start1 d h1 h2 h3 h4, rows_window1 d h1 h2 h3 h4, zero_add, hq]
    intro a
    match a with
    | ⟨0, _⟩ => exact f0
    | ⟨1, _⟩ => exact f1

end Rows

theorem scatterAdd_rows {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : (⟨2, ![E, 1]⟩ : Shape).Idx → BitVec 32)
    (upd : (⟨2, ![E, D]⟩ : Shape).Idx → EReal) (p : Fin N) (q : Fin D) :
    Ideal.hostScatterAdd d x idx upd (ix2 p q)
      = x (ix2 p q) + ∑ e ∈ Finset.univ.filter (fun e : Fin E => (idx (ix2 e 0)).toInt = (p.val : Int)), upd (ix2 e q) := by
  unfold Ideal.hostScatterAdd
  congr 1
  refine Finset.sum_nbij' (fun j => j 0) (fun e => ix2 e q) ?_ ?_ ?_ ?_ ?_
  · intro j hj
    exact Finset.mem_filter.mpr ⟨Finset.mem_univ _, ((rows_lands d h1 h2 h3 h4 idx j p q).mp (Finset.mem_filter.mp hj).2).1⟩
  · intro e he
    exact Finset.mem_filter.mpr ⟨Finset.mem_univ _, (rows_lands d h1 h2 h3 h4 idx (ix2 e q) p q).mpr ⟨(Finset.mem_filter.mp he).2, rfl⟩⟩
  · intro j hj
    have hq := ((rows_lands d h1 h2 h3 h4 idx j p q).mp (Finset.mem_filter.mp hj).2).2
    exact (congrArg (ix2 (j 0)) hq.symm).trans (eq_ix2 j).symm
  · intro e _
    rfl
  · intro j hj
    have hq := ((rows_lands d h1 h2 h3 h4 idx j p q).mp (Finset.mem_filter.mp hj).2).2
    exact congrArg upd ((eq_ix2 j).trans (congrArg (ix2 (j 0)) hq))

end Cert.Sage.IndexRead

end
-- ==== Proof.RReadH.lean ====
import proofs.«427771_j81243601371607_1_alg».proof.Proof.RReadLayer
import proofs.«427771_j81243601371607_1_alg».proof.Proof.LibIndexRead

noncomputable section

namespace Cert.ReferenceIdeal.Val

open Cert.ReferenceIdeal Cert.ReferenceIdeal.Gen Idealize.ShloMosaic Idealize.ShloMosaic.TcCoe Idealize.ShloMosaic.ValueIdx Idealize.SL.Sem Idealize.ShloMosaic.StableHlo

variable (U : Valuation τ sig (Elt Ideal))

namespace HeadH
theorem dot1_apply (l r : FVec Ideal S128x128 .f32) (p q : Fin 128) :
    Host.dotGeneral dot_S128x128_S128x128_S128x128_1_0_0_1_n_n none l r (ix2 p q) = ∑ k : Fin 128, l (ix2 p k) * r (ix2 k q) :=
  StackMember.dotGeneral_plain_apply none l r p q

theorem dot2_apply (l : FVec Ideal S128x128 .f32) (r : FVec Ideal S128x2 .f32) (p : Fin 128) (q : Fin 2) :
    Host.dotGeneral dot_S128x128_S128x2_S128x2_1_0_0_1_n_n none l r (ix2 p q) = ∑ k : Fin 128, l (ix2 p k) * r (ix2 k q) :=
  StackMember.dotGeneral_plain_apply none l r p q

def cntH (b : IVec S50000 32) : FVec Ideal S128 .f32 :=
  Host.scatterAdd scatter_S128_S50000x1_S50000_n_0_0_1
    (broadcastInDim S128 ![] bcast_S_S128 (constant (F := Ideal) S_ .f32 0x00000000#32))
    (broadcastInDim S50000x1 ![0] bcast_S50000_S50000x1_0 b)
    (broadcastInDim S50000 ![] bcast_S_S50000 (constant (F := Ideal) S_ .f32 0x3F800000#32))

def sumH (b : IVec S50000 32) (x : FVec Ideal S50000x128 .f32) : FVec Ideal S128x128 .f32 :=
  Host.scatterAdd scatter_S128x128_S50000x1_S50000x128_1_0_0_1
    (broadcastInDim S128x128 ![] bcast_S_S128x128 (constant (F := Ideal) S_ .f32 0x00000000#32))
    (broadcastInDim S50000x1 ![0] bcast_S50000_S50000x1_0 b) x

def pooledH (b : IVec S50000 32) (x : FVec Ideal S50000x128 .f32) : FVec Ideal S128x128 .f32 :=
  Host.divf (sumH b x)
    (broadcastInDim S128x128 ![0, 1] bcast_S128x1_S128x128_0_1
      (broadcastInDim S128x1 ![0] bcast_S128_S128x1_0
        (maximumf (cntH b) (broadcastInDim S128 ![] bcast_S_S128 (constant (F := Ideal) S_ .f32 0x3F800000#32)))))

def hidH (p w1 : FVec Ideal S128x128 .f32) (b1 : FVec Ideal S128 .f32) : FVec Ideal S128x128 .f32 :=
  maximumf
    (addf (Host.dotGeneral dot_S128x128_S128x128_S128x128_1_0_0_1_n_n none p w1)
      (broadcastInDim S128x128 ![0, 1] bcast_S1x128_S128x128_0_1 (broadcastInDim S1x128 ![1] bcast_S128_S1x128_1 b1)))
    (broadcastInDim S128x128 ![] bcast_S_S128x128 (constant (F := Ideal) S_ .f32 0x00000000#32))

def logitH (h : FVec Ideal S128x128 .f32) (w2 : FVec Ideal S128x2 .f32) (b2 : FVec Ideal S2 .f32) : FVec Ideal S128x2 .f32 :=
  addf (Host.dotGeneral dot_S128x128_S128x2_S128x2_1_0_0_1_n_n none h w2)
    (broadcastInDim S128x2 ![0, 1] bcast_S1x2_S128x2_0_1 (broadcastInDim S1x2 ![1] bcast_S2_S1x2_1 b2))

def rowMaxH (lg : FVec Ideal S128x2 .f32) : FVec Ideal S128 .f32 :=
  maximumf (broadcastInDim S128 ![] bcast_S_S128 (constant (F := Ideal) S_ .f32 0xFF800000#32))
    (Host.reduce FloatOps.maximumf lg (constant (F := Ideal) S_ .f32 0xFF800000#32) reducesTo_S128x2_S128_d1 h_S_)

def shiftH (lg : FVec Ideal S128x2 .f32) : FVec Ideal S128x2 .f32 :=
  subf lg (broadcastInDim S128x2 ![0, 1] bcast_S128x1_S128x2_0_1 (broadcastInDim S128x1 ![0] bcast_S128_S128x1_0 (rowMaxH lg)))

def lseH (z : FVec Ideal S128x2 .f32) : FVec Ideal S128x1 .f32 :=
  Host.log (broadcastInDim S128x1 ![0] bcast_S128_S128x1_0
    (Host.reduceAdd (Host.exp z) (constant (F := Ideal) S_ .f32 0x00000000#32) reducesTo_S128x2_S128_d1 h_S_))

def lsmH (lg : FVec Ideal S128x2 .f32) : FVec Ideal S128x2 .f32 :=
  subf (shiftH lg) (broadcastInDim S128x2 ![0, 1] bcast_S128x1_S128x2_0_1 (lseH (shiftH lg)))

theorem scatterAdd_ideal {s si su : Shape} {w : Nat} (d : ScatterDims s si su) (x : FVec Ideal s .f32) (idx : IVec si w)
    (upd : FVec Ideal su .f32) : Host.scatterAdd d x idx upd = Ideal.hostScatterAdd d x idx upd := rfl
theorem divf_ideal {s : Shape} (a b : FVec Ideal s .f32) (i : s.Idx) : Host.divf a b i = Ideal.div (a i) (b i) := rfl

theorem cntH_apply (b : IVec S50000 32) (g : Fin 128) :
    cntH b (ix1 g)
      = Gcn.cZero + ∑ _n ∈ Finset.univ.filter (fun n : Fin 50000 => (b (ix1 n)).toInt = (g.val : Int)), Gcn.cOne := by
  unfold cntH
  rw [scatterAdd_ideal, Cert.Sage.IndexRead.scatterAdd_vec scatter_S128_S50000x1_S50000_n_0_0_1 rfl rfl rfl rfl]
  refine congrArg₂ (· + ·) rfl (Finset.sum_congr (Finset.filter_congr fun e _ => ?_) fun e _ => rfl)
  rw [bc_vec_col]

theorem sumH_apply (b : IVec S50000 32) (x : FVec Ideal S50000x128 .f32) (g q : Fin 128) :
    sumH b x (ix2 g q)
      = Gcn.cZero + ∑ n ∈ Finset.univ.filter (fun n : Fin 50000 => (b (ix1 n)).toInt = (g.val : Int)), x (ix2 n q) := by
  unfold sumH
  rw [scatterAdd_ideal, Cert.Sage.IndexRead.scatterAdd_rows scatter_S128x128_S50000x1_S50000x128_1_0_0_1 rfl rfl rfl rfl]
  refine congrArg₂ (· + ·) rfl (Finset.sum_congr (Finset.filter_congr fun e _ => ?_) fun e _ => rfl)
  rw [bc_vec_col]

theorem pooledH_eq (b : IVec S50000 32) (x : FVec Ideal S50000x128 .f32) :
    pooledH b x = Gcn.pooledR (fun n => b (ix1 n)) x := by
  funext i
  obtain ⟨g, q, rfl⟩ : ∃ (g q : Fin 128), i = ix2 g q := ⟨i 0, i 1, eq_ix2 i⟩
  unfold pooledH
  rw [divf_ideal, bc_col, bc_vec_col, maximumf_apply, sumH_apply, cntH_apply]
  rfl

theorem hidH_eq (p w1 : FVec Ideal S128x128 .f32) (b1 : FVec Ideal S128 .f32) :
    hidH p w1 b1
      = fun i => max ((∑ k : Fin 128, p (ix2 (i 0) k) * w1 (ix2 k (i 1))) + b1 (ix1 (i 1))) Gcn.cZero := by
  funext i
  obtain ⟨g, q, rfl⟩ : ∃ (g q : Fin 128), i = ix2 g q := ⟨i 0, i 1, eq_ix2 i⟩
  unfold hidH
  rw [maximumf_apply, addf_apply, dot1_apply, broadcastInDim_oneRow_apply, bc_vec_row]
  rfl

theorem logitH_eq (h : FVec Ideal S128x128 .f32) (w2 : FVec Ideal S128x2 .f32) (b2 : FVec Ideal S2 .f32) :
    logitH h w2 b2 = fun i => (∑ k : Fin 128, h (ix2 (i 0) k) * w2 (ix2 k (i 1))) + b2 (ix1 (i 1)) := by
  funext i
  obtain ⟨g, q, rfl⟩ : ∃ (g : Fin 128) (q : Fin 2), i = ix2 g q := ⟨i 0, i 1, eq_ix2 i⟩
  unfold logitH
  rw [addf_apply, dot2_apply, broadcastInDim_oneRow_apply, bc_vec_row]

theorem negInf_eq : Ideal.ofBits .f32 0xFF800000#32 = (⊥ : EReal) := by
  simp [Ideal.ofBits, Ideal.ieee]

theorem red_rows : Shape.Reduces S128x2 [1] S128 := by decide

theorem lift_row (g : Fin 128) (k : Fin 2) : red_rows.lift (ix1 g) k = ix2 g k := by
  funext a; apply Fin.ext
  match a with
  | ⟨0, _⟩ => rfl
  | ⟨1, _⟩ => rfl

theorem fold_max_two (c : EReal) (f : Fin 2 → EReal) :
    (Finset.univ : Finset (Fin 2)).fold max c f = max (f 0) (max (f 1) c) := by
  rw [show (Finset.univ : Finset (Fin 2)) = {0, 1} from by decide, Finset.fold_insert (by decide), Finset.fold_singleton]

theorem rowMaxH_apply (lg : FVec Ideal S128x2 .f32) (g : Fin 128) :
    rowMaxH lg (ix1 g) = max (lg (ix2 g 0)) (lg (ix2 g 1)) := by
  unfold rowMaxH
  rw [maximumf_apply,
    Host.reduce_eq_fold_single FloatOps.maximumf lg _ reducesTo_S128x2_S128_d1 red_rows h_S_ (ix1 g)]
  show max (Ideal.ofBits .f32 0xFF800000#32)
      ((Finset.univ : Finset (Fin 2)).fold max (Ideal.ofBits .f32 0xFF800000#32) (fun k : Fin 2 => lg (red_rows.lift (ix1 g) k))) = _
  rw [fold_max_two, negInf_eq, lift_row, lift_row, max_bot_left, max_bot_right]

theorem shiftH_apply (lg : FVec Ideal S128x2 .f32) (g : Fin 128) (q : Fin 2) :
    shiftH lg (ix2 g q) = lg (ix2 g q) - max (lg (ix2 g 0)) (lg (ix2 g 1)) := by
  unfold shiftH
  rw [subf_apply, bc_col, bc_vec_col, rowMaxH_apply]

theorem lseH_apply (z : FVec Ideal S128x2 .f32) (g : Fin 128) (c : Fin 1) :
    lseH z (ix2 g c) = Ideal.log (Ideal.exp (z (ix2 g 0)) + Ideal.exp (z (ix2 g 1))) := by
  unfold lseH
  show Ideal.log (broadcastInDim S128x1 ![0] bcast_S128_S128x1_0
      (Ideal.hostReduceAdd reducesTo_S128x2_S128_d1 (Host.exp z) (Ideal.ofBits .f32 0x00000000#32)) (ix2 g c)) = _
  rw [bc_vec_col, Ideal.hostReduceAdd_single reducesTo_S128x2_S128_d1 red_rows]
  show Ideal.log (Ideal.ofBits .f32 0x00000000#32 + ∑ k : Fin 2, Host.exp z (red_rows.lift (ix1 g) k)) = _
  rw [Fin.sum_univ_two, lift_row, lift_row, Ideal.ofBits_zero_f32, zero_add]
  rfl

theorem lsmH_eq (lg : FVec Ideal S128x2 .f32) :
    lsmH lg = fun i =>
      (lg i - max (lg (ix2 (i 0) 0)) (lg (ix2 (i 0) 1)))
        - Ideal.log (Ideal.exp (lg (ix2 (i 0) 0) - max (lg (ix2 (i 0) 0)) (lg (ix2 (i 0) 1)))
            + Ideal.exp (lg (ix2 (i 0) 1) - max (lg (ix2 (i 0) 0)) (lg (ix2 (i 0) 1)))) := by
  funext i
  obtain ⟨g, q, rfl⟩ : ∃ (g : Fin 128) (q : Fin 2), i = ix2 g q := ⟨i 0, i 1, eq_ix2 i⟩
  unfold lsmH
  rw [subf_apply, bc_col, lseH_apply, shiftH_apply, shiftH_apply, shiftH_apply]

theorem run_eq :
    after (opsH (F := Ideal)) U (Proc.devRef .tc main_v194)
      = lsmH (logitH (hidH (pooledH (U (Proc.devRef .tc main_arg10)) (U (Proc.devRef .tc main_v172))) (U (Proc.devRef .tc main_arg5))
          (U (Proc.devRef .tc main_arg6))) (U (Proc.devRef .tc main_arg7)) (U (Proc.devRef .tc main_arg8))) := by
  after_results_simp
  rfl

end HeadH

open HeadH

def wH : List (Ref sig .tc) :=
  [main_cst_27, main_v173, main_cst_28, main_v174, main_v175, main_v176, main_cst_29, main_v177,
   main_v178, main_v179, main_cst_30, main_v180, main_v181, main_v182, main_v183, main_v184,
   main_v185, main_v186, main_v187, main_v188, main_call6_cst, main_call6_v0, main_v189, main_v190,
   main_v191, main_v192, main_v193, main_call7_cst, main_call7_v0, main_call7_cst_0, main_call7_v1, main_call7_v2,
   main_call7_v3, main_call7_v4, main_call7_v5, main_call7_v6, main_call7_cst_1, main_call7_v7, main_call7_v8, main_call7_v9,
   main_call7_v10, main_v194]

theorem opsH_writes : (opsH (F := Ideal)).Forall fun op => op.writes ⊆ (wH.map (Proc.devRef (τ := τ) .tc)).toFinset := by
  repeat' apply And.intro
  all_goals exact single_sub_of_mem (by decide)

theorem h_out :
    after (opsH (F := Ideal)) U (Proc.devRef .tc main_v194)
      = Gcn.mlp (Gcn.pooledR (fun n => U (Proc.devRef .tc main_arg10) (ix1 n)) (U (Proc.devRef .tc main_v172))) (U (Proc.devRef .tc main_arg5))
          (fun d => U (Proc.devRef .tc main_arg6) (ix1 d)) (U (Proc.devRef .tc main_arg7)) (fun d => U (Proc.devRef .tc main_arg8) (ix1 d)) := by
  rw [run_eq, pooledH_eq, hidH_eq, logitH_eq, lsmH_eq]
  rfl

end Cert.ReferenceIdeal.Val

end
-- ==== Proof.RRead.lean ====
import proofs.«427771_j81243601371607_1_alg».proof.Proof.RReadP
import proofs.«427771_j81243601371607_1_alg».proof.Proof.RReadL0
import proofs.«427771_j81243601371607_1_alg».proof.Proof.RReadL1
import proofs.«427771_j81243601371607_1_alg».proof.Proof.RReadL2
import proofs.«427771_j81243601371607_1_alg».proof.Proof.RReadH

noncomputable section

namespace Cert.ReferenceIdeal.Val

open Cert.ReferenceIdeal Cert.ReferenceIdeal.Gen Idealize.ShloMosaic Idealize.ShloMosaic.TcCoe Idealize.ShloMosaic.ValueIdx Idealize.SL.Sem Idealize.ShloMosaic.StableHlo

variable (V : Valuation τ sig (Elt Ideal)) {b : Ref sig .tc}

-- a buffer no stretch so far writes still holds what the run started from
theorem keep1 (h : b ∉ wP) : after (opsP (F := Ideal)) V (Proc.devRef .tc b) = V (Proc.devRef .tc b) :=
  after_of_writes_sub _ _ opsP_writes h
theorem keep2 (h : b ∉ wP ∧ b ∉ wL0) : after (opsL0 (F := Ideal)) (after opsP V) (Proc.devRef .tc b) = V (Proc.devRef .tc b) :=
  (after_of_writes_sub _ _ opsL0_writes h.2).trans (keep1 V h.1)
theorem keep3 (h : b ∉ wP ∧ b ∉ wL0 ∧ b ∉ wL1) :
    after (opsL1 (F := Ideal)) (after opsL0 (after opsP V)) (Proc.devRef .tc b) = V (Proc.devRef .tc b) :=
  (after_of_writes_sub _ _ opsL1_writes h.2.2).trans (keep2 V ⟨h.1, h.2.1⟩)
theorem keep4 (h : b ∉ wP ∧ b ∉ wL0 ∧ b ∉ wL1 ∧ b ∉ wL2) :
    after (opsL2 (F := Ideal)) (after opsL1 (after opsL0 (after opsP V))) (Proc.devRef .tc b) = V (Proc.devRef .tc b) :=
  (after_of_writes_sub _ _ opsL2_writes h.2.2.2).trans (keep3 V ⟨h.1, h.2.1, h.2.2.1⟩)

-- the edge list's values are written before the layers and by no layer
theorem edge2 (h : b ∉ wL0) : after (opsL0 (F := Ideal)) V (Proc.devRef .tc b) = V (Proc.devRef .tc b) :=
  after_of_writes_sub _ _ opsL0_writes h
theorem edge3 (h : b ∉ wL0 ∧ b ∉ wL1) : after (opsL1 (F := Ideal)) (after opsL0 V) (Proc.devRef .tc b) = V (Proc.devRef .tc b) :=
  (after_of_writes_sub _ _ opsL1_writes h.2).trans (edge2 V h.1)

theorem rvalV :
    after (ops (F := Ideal)) V (Proc.devRef .tc main_v194)
      = Gcn.netR (Gcn.aggOf (V (Proc.devRef .tc main_arg9))) (Gcn.snOf (V (Proc.devRef .tc main_arg9)))
          (V (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8)) (V (Proc.devRef .tc main_arg10)) := by
  rw [ops_split, after_append, after_append, after_append, after_append, h_out, l2_x, l1_x, l0_x,
    keep4 V (b := main_arg5) (by decide), keep4 V (b := main_arg6) (by decide), keep4 V (b := main_arg7) (by decide), keep4 V (b := main_arg8) (by decide), keep4 V (b := main_arg10) (by decide),
    keep3 V (b := main_arg1) (by decide), keep3 V (b := main_arg2) (by decide), keep3 V (b := main_arg3) (by decide), keep3 V (b := main_arg4) (by decide),
    keep2 V (b := main_arg1) (by decide), keep2 V (b := main_arg2) (by decide), keep2 V (b := main_arg3) (by decide), keep2 V (b := main_arg4) (by decide),
    keep1 V (b := main_arg0) (by decide), keep1 V (b := main_arg1) (by decide), keep1 V (b := main_arg2) (by decide), keep1 V (b := main_arg3) (by decide), keep1 V (b := main_arg4) (by decide),
    edge3 _ (b := main_v1) (by decide), edge3 _ (b := main_v3) (by decide), edge3 _ (b := main_v26) (by decide), edge3 _ (b := main_v28) (by decide),
    edge2 _ (b := main_v1) (by decide), edge2 _ (b := main_v3) (by decide), edge2 _ (b := main_v26) (by decide), edge2 _ (b := main_v28) (by decide), p_src, p_dst, p_norm, p_sn]
  rfl

theorem keepAll (hb : b ∉ wP ∧ b ∉ wL0 ∧ b ∉ wL1 ∧ b ∉ wL2 ∧ b ∉ wH) :
    after (ops (F := Ideal)) V (Proc.devRef .tc b) = V (Proc.devRef .tc b) := by
  rw [ops_split, after_append, after_append, after_append, after_append, after_of_writes_sub _ _ opsH_writes hb.2.2.2.2,
    keep4 V ⟨hb.1, hb.2.1, hb.2.2.1, hb.2.2.2.1⟩]

variable (m : (ℓ : Loc nD τ sig) → Buf (Elt Ideal) ℓ) (c : Dev nD)

theorem rval :
    after (ops (F := Ideal)) (launchContents m c) (Proc.devRef .tc main_v194)
      = Gcn.netR (Gcn.aggOf (m ((c.tc : Thread nD τ).loc main_arg9))) (Gcn.snOf (m ((c.tc : Thread nD τ).loc main_arg9)))
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg10)) :=
  rvalV (launchContents m c)

theorem rarg (hb : b ∉ wP ∧ b ∉ wL0 ∧ b ∉ wL1 ∧ b ∉ wL2 ∧ b ∉ wH) :
    after (ops (F := Ideal)) (launchContents m c) (Proc.devRef .tc b) = m ((c.tc : Thread nD τ).loc b) :=
  keepAll _ hb

end Cert.ReferenceIdeal.Val

end
-- ==== Proof.LayerMath.lean ====
import proofs.«427771_j81243601371607_1_alg».proof.Proof.Spec
import Idealize.ShloMosaic.PureOps.Ideal
import Idealize.ShloMosaic.Lib.ValueIdx
import Mathlib.Data.EReal.Inv
import Mathlib.Analysis.SpecialFunctions.Exp
import Mathlib.Analysis.SpecialFunctions.Sqrt
import Mathlib.Algebra.BigOperators.Group.Finset.Basic
import Mathlib.Algebra.BigOperators.Ring.Finset
import Mathlib.Algebra.Order.BigOperators.Ring.Finset
import Mathlib.Tactic.Ring
import Mathlib.Tactic.FieldSimp
import Mathlib.Tactic.Positivity
import Mathlib.Tactic.NormNum

noncomputable section

namespace Cert.Gcn

open Idealize.ShloMosaic Idealize.ShloMosaic.ValueIdx

namespace Layer

theorem cZero_eq : cZero = 0 := by simp [Ideal.ofBits, Ideal.ieee]

theorem cOne_eq : cOne = 1 := by
  simp [Ideal.ofBits, Ideal.ieee, -EReal.coe_mul]; norm_num

theorem cN_eq : cN = ((50000 : ℝ) : EReal) := by
  simp [Ideal.ofBits, Ideal.ieee, -EReal.coe_mul]; norm_num

theorem cEps_pos : ∃ r : ℝ, 0 < r ∧ cEps = (r : EReal) := by
  simp [Ideal.ofBits, Ideal.ieee, -EReal.coe_mul]

theorem elu_eq (p : EReal) : eluK p = eluR p := by
  unfold eluK eluR
  by_cases h : cZero < p
  · simp only [if_pos h]
  · simp only [if_neg h]
    rw [cOne_eq, one_mul]

theorem eluK_coe (r : ℝ) : eluK (r : EReal) = ((if 0 < r then r else Real.exp r - 1 : ℝ) : EReal) := by
  unfold eluK
  rw [cZero_eq, cOne_eq]
  by_cases h : (0 : ℝ) < r
  · rw [if_pos h, if_pos (by exact_mod_cast h)]
  · rw [if_neg h, if_neg (by exact_mod_cast h), Ideal.exp_coe, EReal.coe_sub, EReal.coe_one]

theorem exists_coe {p : EReal} (h : p ≠ ⊤ ∧ p ≠ ⊥) : ∃ r : ℝ, p = (r : EReal) :=
  ⟨p.toReal, (EReal.coe_toReal h.1 h.2).symm⟩

theorem coe_fin (r : ℝ) : (r : EReal) ≠ ⊤ ∧ (r : EReal) ≠ ⊥ := ⟨EReal.coe_ne_top r, EReal.coe_ne_bot r⟩

def IsR (a : EReal) : Prop := a ≠ ⊤ ∧ a ≠ ⊥

theorem IsR.add {a b : EReal} (ha : IsR a) (hb : IsR b) : IsR (a + b) := by
  obtain ⟨r, rfl⟩ := exists_coe ha; obtain ⟨s, rfl⟩ := exists_coe hb
  rw [← EReal.coe_add]; exact coe_fin _

theorem IsR.mul {a b : EReal} (ha : IsR a) (hb : IsR b) : IsR (a * b) := by
  obtain ⟨r, rfl⟩ := exists_coe ha; obtain ⟨s, rfl⟩ := exists_coe hb
  rw [← EReal.coe_mul]; exact coe_fin _

theorem IsR.sum {ι : Type} (s : Finset ι) (f : ι → EReal) (h : ∀ j ∈ s, IsR (f j)) : IsR (∑ j ∈ s, f j) :=
  Finset.sum_induction f IsR (fun _ _ => IsR.add) (coe_fin 0) h

theorem fin2_eq_coe {s : Shape} {x : s.Idx → EReal} (h : Fin2 x) :
    x = fun i => (((x i).toReal : ℝ) : EReal) := by
  funext i; exact (EReal.coe_toReal (h i).1 (h i).2).symm

theorem fin2_coe {s : Shape} (f : s.Idx → ℝ) : Fin2 (fun i => (f i : EReal)) := fun i => coe_fin (f i)

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mm_fin {x : Mat} {w : Sq} (hx : Fin2 x) (hw : Fin2 w) : Fin2 (mm x w) :=
  fun i => IsR.sum _ _ fun k _ => IsR.mul (hx _) (hw _)

theorem pre_fin {a h : Mat} {sn : Fin 50000 → EReal} {b : Fin 128 → EReal}
    (ha : Fin2 a) (hsn : FinV sn) (hh : Fin2 h) (hb : FinV b) : Fin2 (pre a sn h b) :=
  fun i => IsR.add (IsR.add (ha i) (IsR.mul (hsn _) (hh i))) (hb _)

theorem eluK_fin {p : EReal} (h : p ≠ ⊤ ∧ p ≠ ⊥) : eluK p ≠ ⊤ ∧ eluK p ≠ ⊥ := by
  obtain ⟨r, hr⟩ := exists_coe h
  rw [hr, eluK_coe]; exact coe_fin _

theorem colSum_coe (f : (⟨2, ![50000, 128]⟩ : Shape).Idx → ℝ) (d : Fin 128) :
    colSum (fun i => (f i : EReal)) d = ((∑ n : Fin 50000, f (ix2 n d) : ℝ) : EReal) := by
  unfold colSum; rw [coe_sum]

theorem meanOf_coe (f : (⟨2, ![50000, 128]⟩ : Shape).Idx → ℝ) (d : Fin 128) :
    meanOf (fun i => (f i : EReal)) d = (((∑ n : Fin 50000, f (ix2 n d)) * (1 / 50000) : ℝ) : EReal) := by
  unfold meanOf
  rw [colSum_coe, cN_eq, Ideal.div_coe (by norm_num), ← EReal.coe_mul]

theorem varK_coe (f : (⟨2, ![50000, 128]⟩ : Shape).Idx → ℝ) (d : Fin 128) :
    varK (fun i => (f i : EReal)) d
      = (((∑ n : Fin 50000, f (ix2 n d) * f (ix2 n d)) * (1 / 50000)
          - ((∑ n : Fin 50000, f (ix2 n d)) * (1 / 50000)) * ((∑ n : Fin 50000, f (ix2 n d)) * (1 / 50000)) : ℝ) : EReal) := by
  have h2 : (fun i => (f i : EReal) * (f i : EReal)) = fun i => ((f i * f i : ℝ) : EReal) := by
    funext i; rw [EReal.coe_mul]
  simp only [varK]
  rw [meanOf_coe, h2, colSum_coe, cN_eq, Ideal.div_coe (by norm_num), ← EReal.coe_mul, ← EReal.coe_mul, ← EReal.coe_sub]

theorem varR_coe (f : (⟨2, ![50000, 128]⟩ : Shape).Idx → ℝ) (d : Fin 128) :
    varR (fun i => (f i : EReal)) d
      = (((∑ n : Fin 50000, (f (ix2 n d) - (∑ m : Fin 50000, f (ix2 m d)) * (1 / 50000))
            * (f (ix2 n d) - (∑ m : Fin 50000, f (ix2 m d)) * (1 / 50000))) * (1 / 50000) : ℝ) : EReal) := by
  have hlt : cZero < cN - 0 := by
    rw [sub_zero, cZero_eq, cN_eq]; exact_mod_cast (by norm_num : (0 : ℝ) < 50000)
  have h2 : (fun i : (⟨2, ![50000, 128]⟩ : Shape).Idx =>
        ((f i : EReal) - meanOf (fun i => (f i : EReal)) (i 1)) * ((f i : EReal) - meanOf (fun i => (f i : EReal)) (i 1)))
      = fun i => (((f i - (∑ m : Fin 50000, f (ix2 m (i 1))) * (1 / 50000))
          * (f i - (∑ m : Fin 50000, f (ix2 m (i 1))) * (1 / 50000)) : ℝ) : EReal) := by
    funext i; rw [meanOf_coe f (i 1), ← EReal.coe_sub, ← EReal.coe_mul]
  simp only [varR]
  rw [if_pos hlt, h2, colSum_coe, sub_zero, cN_eq, Ideal.div_coe (by norm_num), ← EReal.coe_mul]

theorem var_real (a : Fin 50000 → ℝ) :
    (∑ n, a n * a n) * (1 / 50000) - ((∑ n, a n) * (1 / 50000)) * ((∑ n, a n) * (1 / 50000))
      = (∑ n, (a n - (∑ m, a m) * (1 / 50000)) * (a n - (∑ m, a m) * (1 / 50000))) * (1 / 50000) := by
  simp only [sub_mul, mul_sub, Finset.sum_sub_distrib, ← Finset.sum_mul, ← Finset.mul_sum, Finset.sum_const, Finset.card_univ,
    Fintype.card_fin, nsmul_eq_mul]
  push_cast
  ring

theorem varK_eq_varR {e : Mat} (he : Fin2 e) (d : Fin 128) : varK e d = varR e d := by
  rw [fin2_eq_coe he, varK_coe, varR_coe, var_real (fun n => (e (ix2 n d)).toReal)]

theorem varR_nonneg {e : Mat} (he : Fin2 e) (d : Fin 128) : ∃ v : ℝ, 0 ≤ v ∧ varR e d = (v : EReal) := by
  rw [fin2_eq_coe he, varR_coe]
  exact ⟨_, mul_nonneg (Finset.sum_nonneg (fun n _ => mul_self_nonneg _)) (by norm_num), rfl⟩

theorem rsqrt_fin (v : ℝ) (hv : 0 ≤ v) : ∃ t : ℝ, Ideal.rsqrt ((v : EReal) + cEps) = (t : EReal) := by
  obtain ⟨r, hr, he⟩ := cEps_pos
  have hpos : 0 < v + r := by linarith
  rw [he, ← EReal.coe_add, Ideal.rsqrt_coe, if_neg (not_lt.2 hpos.le), if_neg hpos.ne']
  exact ⟨_, rfl⟩

theorem bnorm_layer (e : Mat) (he : Fin2 e) (g be : Fin 128 → EReal) (hg : FinV g) (hbe : FinV be) :
    bnorm e (meanOf e) (fun d => Ideal.rsqrt (varK e d + cEps)) g be
        = bnorm e (meanOf e) (fun d => Ideal.rsqrt (varR e d + cEps)) g be
      ∧ Fin2 (bnorm e (meanOf e) (fun d => Ideal.rsqrt (varK e d + cEps)) g be) := by
  have hv : (fun d => Ideal.rsqrt (varK e d + cEps)) = fun d => Ideal.rsqrt (varR e d + cEps) := by
    funext d; rw [varK_eq_varR he d]
  rw [hv]
  refine ⟨rfl, fun i => ?_⟩
  obtain ⟨v, hv0, hvd⟩ := varR_nonneg he (i 1)
  obtain ⟨t, ht⟩ := rsqrt_fin v hv0
  obtain ⟨re, hre⟩ := exists_coe (he i)
  obtain ⟨rg, hrg⟩ := exists_coe (hg (i 1))
  obtain ⟨rb, hrb⟩ := exists_coe (hbe (i 1))
  have hm : ∃ m : ℝ, meanOf e (i 1) = (m : EReal) := by
    rw [fin2_eq_coe he, meanOf_coe _ (i 1)]; exact ⟨_, rfl⟩
  obtain ⟨m, hm⟩ := hm
  simp only [bnorm]
  rw [hvd, ht, hre, hrg, hrb, hm, ← EReal.coe_sub, ← EReal.coe_mul, ← EReal.coe_mul, ← EReal.coe_add]
  exact coe_fin _

end Layer

open Layer in
theorem layer_eq (agg : Mat → Mat) (sn : Fin 50000 → EReal) (x : Mat) (w : Sq) (b g be : Fin 128 → EReal)
    (hagg : ∀ h, Fin2 h → Fin2 (agg h)) (hsn : FinV sn) (hx : Fin2 x) (hw : Fin2 w) (hb : FinV b) (hg : FinV g)
    (hbe : FinV be) :
    layerK agg sn x w b g be = layerR agg sn x w b g be ∧ Fin2 (layerK agg sn x w b g be) := by
  have hR : (fun i => eluR (pre (agg (mm x w)) sn (mm x w) b i))
      = fun i => eluK (pre (agg (mm x w)) sn (mm x w) b i) := by
    funext i; exact (elu_eq _).symm
  have hh : Fin2 (mm x w) := mm_fin hx hw
  have hp : Fin2 (pre (agg (mm x w)) sn (mm x w) b) := pre_fin (hagg _ hh) hsn hh hb
  have hef : Fin2 (fun i => eluK (pre (agg (mm x w)) sn (mm x w) b i)) := fun i => eluK_fin (hp i)
  unfold layerK layerR
  rw [hR]
  exact bnorm_layer _ hef g be hg hbe

end Cert.Gcn
end
-- ==== Proof.HeadMath.lean ====
import proofs.«427771_j81243601371607_1_alg».proof.Proof.LayerMath

noncomputable section

namespace Cert.Gcn

open Idealize.ShloMosaic Idealize.ShloMosaic.ValueIdx Layer

theorem toInt_ofNat_small (g : Fin 128) : (BitVec.ofNat 32 g.val).toInt = (g.val : Int) := by
  have hg := g.isLt
  rw [BitVec.toInt_eq_toNat_cond, BitVec.toNat_ofNat]
  have h : g.val % 2 ^ 32 = g.val := Nat.mod_eq_of_lt (by omega)
  rw [h, if_pos (by omega)]

theorem word_eq_iff (b : BitVec 32) (g : Fin 128) : b = BitVec.ofNat 32 g.val ↔ b.toInt = (g.val : Int) :=
  ⟨fun h => h ▸ toInt_ofNat_small g, fun h => BitVec.eq_of_toInt_eq (h.trans (toInt_ofNat_small g).symm)⟩

theorem pooled_eq (batch : Fin 50000 → BitVec 32) (x : Mat) : pooledK batch x = pooledR batch x := by
  funext i
  have hoh : ∀ n, ohOf batch (ix2 n (i 0)) = if (batch n).toInt = ((i 0).val : Int) then 1 else 0 := fun n =>
    if_congr (word_eq_iff _ _) rfl rfl
  simp only [pooledK, pooledR, poolSumK, countK, hoh, ite_mul, one_mul, zero_mul, ← Finset.sum_filter, cZero_eq, cOne_eq, zero_add]

end Cert.Gcn

end
-- ==== Proof.NetMath.lean ====
import proofs.«427771_j81243601371607_1_alg».proof.Proof.LayerMath
import proofs.«427771_j81243601371607_1_alg».proof.Proof.HeadMath

noncomputable section

namespace Cert.Gcn

open Idealize.ShloMosaic Idealize.ShloMosaic.ValueIdx

theorem fin2_wOf {W : (⟨3, ![3, 128, 128]⟩ : Shape).Idx → EReal} (h : Fin2 W) (l : Fin 3) : Fin2 (wOf W l) := fun j => h _
theorem finV_rowOf {B : (⟨2, ![3, 128]⟩ : Shape).Idx → EReal} (h : Fin2 B) (l : Fin 3) : FinV (rowOf B l) := fun d => h _

theorem net_eq (agg : Mat → Mat) (sn : Fin 50000 → EReal) (x : Mat) (W : (⟨3, ![3, 128, 128]⟩ : Shape).Idx → EReal)
    (B G Be : (⟨2, ![3, 128]⟩ : Shape).Idx → EReal) (l1w : Sq) (l1b : (⟨1, ![128]⟩ : Shape).Idx → EReal) (l2w : Out)
    (l2b : (⟨1, ![2]⟩ : Shape).Idx → EReal) (batch : (⟨1, ![50000]⟩ : Shape).Idx → BitVec 32)
    (hagg : ∀ h, Fin2 h → Fin2 (agg h)) (hsn : FinV sn) (hx : Fin2 x) (hW : Fin2 W) (hB : Fin2 B) (hG : Fin2 G)
    (hBe : Fin2 Be) :
    netK agg sn x W B G Be l1w l1b l2w l2b batch = netR agg sn x W B G Be l1w l1b l2w l2b batch := by
  unfold netK netR
  obtain ⟨e1, f1⟩ := layer_eq agg sn x (wOf W 0) (rowOf B 0) (rowOf G 0) (rowOf Be 0) hagg hsn hx (fin2_wOf hW 0)
    (finV_rowOf hB 0) (finV_rowOf hG 0) (finV_rowOf hBe 0)
  obtain ⟨e2, f2⟩ := layer_eq agg sn _ (wOf W 1) (rowOf B 1) (rowOf G 1) (rowOf Be 1) hagg hsn f1 (fin2_wOf hW 1)
    (finV_rowOf hB 1) (finV_rowOf hG 1) (finV_rowOf hBe 1)
  obtain ⟨e3, _⟩ := layer_eq agg sn _ (wOf W 2) (rowOf B 2) (rowOf G 2) (rowOf Be 2) hagg hsn f2 (fin2_wOf hW 2)
    (finV_rowOf hB 2) (finV_rowOf hG 2) (finV_rowOf hBe 2)
  rw [pooled_eq, e3, e2, e1]

end Cert.Gcn

end
-- ==== Proof.Finite.lean ====
import proofs.«427771_j81243601371607_1_alg».proof.Proof.Prelude
import proofs.«427771_j81243601371607_1_alg».proof.Proof.Spec
import proofs.«427771_j81243601371607_1_alg».proof.Defs
import proofs.«427771_j81243601371607_1_alg».proof.Proof.Gen.KernelIdeal
import proofs.«427771_j81243601371607_1_alg».proof.Proof.Gen.Pre_finite_inputs
import proofs.«427771_j81243601371607_1_alg».proof.Proof.LayerMath
import Idealize.ShloMosaic.PureOps.Ideal
import Idealize.ShloMosaic.Lib.ReduceAll
import Idealize.ShloMosaic.Lib.ValueIdx

noncomputable section

namespace Cert.Gcn

open Idealize.ShloMosaic Idealize.ShloMosaic.ValueIdx Idealize.SL.Sem Layer

private theorem IsR.pow {a b : EReal} (ha : IsR a) (hb : IsR b) : IsR (Ideal.pow a b) := by
  obtain ⟨r, rfl⟩ := exists_coe ha; obtain ⟨s, rfl⟩ := exists_coe hb
  rw [Ideal.pow_coe_coe]; exact coe_fin _

private theorem ofBits_isR (b : BitVec 32) (h : (b.extractLsb' 23 8).toNat ≠ 2 ^ 8 - 1) : IsR (Ideal.ofBits .f32 b) := by
  show IsR (Ideal.ieee 8 23 b)
  unfold Ideal.ieee
  dsimp only
  rw [if_neg h]
  split_ifs <;> exact coe_fin _

private theorem gather_fin {s si t : Shape} {w : Nat} (d : GatherDims s si t) (x : s.Idx → EReal) (idx : IVec si w)
    (hx : Fin2 x) : Fin2 (Host.gather d x idx) := fun j => hx _

private theorem bcast_fin {s t : Shape} (dims : Fin s.rank → Fin t.rank) (h : s.BroadcastsInDim t dims)
    (x : s.Idx → EReal) (hx : Fin2 x) : Fin2 (broadcastInDim t dims h x) := fun j => hx _

private theorem scatterAdd_fin {s si u : Shape} {w : Nat} (d : ScatterDims s si u) (x : s.Idx → EReal)
    (idx : IVec si w) (upd : u.Idx → EReal) (hx : Fin2 x) (hu : Fin2 upd) :
    Fin2 (Host.scatterAdd (F := Ideal) (φ := .f32) d x idx upd) := fun i =>
  IsR.add (hx i) (IsR.sum _ _ fun j _ => hu j)

private theorem mulf_fin {s : Shape} (x y : s.Idx → EReal) (hx : Fin2 x) (hy : Fin2 y) :
    Fin2 (mulf (F := Ideal) (φ := .f32) x y) := fun i => IsR.mul (hx i) (hy i)

private theorem addf_fin {s : Shape} (x y : s.Idx → EReal) (hx : Fin2 x) (hy : Fin2 y) :
    Fin2 (addf (F := Ideal) (φ := .f32) x y) := fun i => IsR.add (hx i) (hy i)

private theorem powf_fin {s : Shape} (x y : s.Idx → EReal) (hx : Fin2 x) (hy : Fin2 y) :
    Fin2 (Host.powf (F := Ideal) (φ := .f32) x y) := fun i => IsR.pow (hx i) (hy i)

private theorem const_fin (s : Shape) (b : BitVec 32) (h : (b.extractLsb' 23 8).toNat ≠ 2 ^ 8 - 1) :
    Fin2 (constant (F := Ideal) s .f32 b) := fun _ => ofBits_isR b h

private theorem disOf_fin (ei : EI) : Fin2 (disOf ei) := by
  unfold disOf
  exact powf_fin _ _ (addf_fin _ _ (scatterAdd_fin _ _ _ _ (bcast_fin _ _ _ (const_fin _ _ (by decide)))
    (bcast_fin _ _ _ (const_fin _ _ (by decide)))) (bcast_fin _ _ _ (const_fin _ _ (by decide))))
    (bcast_fin _ _ _ (const_fin _ _ (by decide)))

private theorem normOf_fin (ei : EI) : Fin2 (normOf ei) := by
  unfold normOf
  exact mulf_fin _ _ (gather_fin _ _ _ (disOf_fin ei)) (gather_fin _ _ _ (disOf_fin ei))

private theorem snCol_fin (ei : EI) : Fin2 (snCol ei) := by
  unfold snCol
  exact bcast_fin _ _ _ (mulf_fin _ _ (disOf_fin ei) (disOf_fin ei))

theorem aggOf_fin (ei : EI) (h : Mat) (hh : Fin2 h) : Fin2 (aggOf ei h) := by
  unfold aggOf aggFrom
  exact scatterAdd_fin _ _ _ _ (bcast_fin _ _ _ (const_fin _ _ (by decide)))
    (mulf_fin _ _ (gather_fin _ _ _ hh) (bcast_fin _ _ _ (bcast_fin _ _ _ (normOf_fin ei))))

theorem snOf_fin (ei : EI) : FinV (snOf ei) := fun n => snCol_fin ei (ix2 n 0)

private theorem isR_of_abs_lt (x : EReal)
    (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact coe_fin r

private theorem fin_of_all {s : Shape} {axes : List (Fin s.rank)} (x : s.Idx → EReal)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf (F := Ideal) (φ := .f32) .olt (Host.absf (F := Ideal) (φ := .f32) x)
        (broadcastInDim s ![] hb (constant (F := Ideal) ⟨0, ![]⟩ .f32 0x7F800000#32)))
        (constantI ⟨0, ![]⟩ 1 1#1) hr hu ix0 = 1#1) : Fin2 x := by
  haveI : Subsingleton (⟨0, ![]⟩ : Shape).Idx := ⟨fun a b => funext fun d => d.elim0⟩
  intro i
  exact isR_of_abs_lt (x i) (Host.reduce_andi_all _ _ hr hu ix0 e i)

theorem fin_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Fin2 (s := ⟨2, ![50000, 128]⟩) (m ((c.tc : Thread Cert.KernelIdeal.nD Cert.KernelIdeal.τ).loc Cert.KernelIdeal.main_arg0))
    ∧ Fin2 (s := ⟨3, ![3, 128, 128]⟩) (m ((c.tc : Thread Cert.KernelIdeal.nD Cert.KernelIdeal.τ).loc Cert.KernelIdeal.main_arg1))
    ∧ Fin2 (s := ⟨2, ![3, 128]⟩) (m ((c.tc : Thread Cert.KernelIdeal.nD Cert.KernelIdeal.τ).loc Cert.KernelIdeal.main_arg2))
    ∧ Fin2 (s := ⟨2, ![3, 128]⟩) (m ((c.tc : Thread Cert.KernelIdeal.nD Cert.KernelIdeal.τ).loc Cert.KernelIdeal.main_arg3))
    ∧ Fin2 (s := ⟨2, ![3, 128]⟩) (m ((c.tc : Thread Cert.KernelIdeal.nD Cert.KernelIdeal.τ).loc Cert.KernelIdeal.main_arg4)) := by
  have h := congrFun (hpre c) ValueIdx.ix0
  unfold Cert.Pre_finite_inputs.fn Cert.Pre_finite_inputs.fn_part1 Cert.Pre_finite_inputs.fn_part2 at h
  dsimp only at h
  obtain ⟨h, -⟩ := IntOp.andi_eq_one.1 h
  obtain ⟨h, -⟩ := IntOp.andi_eq_one.1 h
  obtain ⟨h, -⟩ := IntOp.andi_eq_one.1 h
  obtain ⟨h, -⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fin_of_all _ _ _ _ h0, fin_of_all _ _ _ _ h1, fin_of_all _ _ _ _ h2, fin_of_all _ _ _ _ h3,
    fin_of_all _ _ _ _ h4⟩

end Cert.Gcn

end
-- ==== Proof.lean ====
import proofs.«427771_j81243601371607_1_alg».proof.Defs
import proofs.«427771_j81243601371607_1_alg».proof.Proof.Gen.Kernel
import proofs.«427771_j81243601371607_1_alg».proof.Proof.Gen.Kernel.Frame
import proofs.«427771_j81243601371607_1_alg».proof.Proof.Gen.KernelIdeal
import proofs.«427771_j81243601371607_1_alg».proof.Proof.Gen.KernelIdeal.Frame
import proofs.«427771_j81243601371607_1_alg».proof.Proof.Gen.ReferenceIdeal
import proofs.«427771_j81243601371607_1_alg».proof.Proof.Gen.Pre_finite_inputs
import proofs.«427771_j81243601371607_1_alg».proof.Proof.KFrameVal
import proofs.«427771_j81243601371607_1_alg».proof.Proof.KChain
import proofs.«427771_j81243601371607_1_alg».proof.Proof.RRun
import proofs.«427771_j81243601371607_1_alg».proof.Proof.RRead
import proofs.«427771_j81243601371607_1_alg».proof.Proof.NetMath
import proofs.«427771_j81243601371607_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

section Reference
open Cert.ReferenceIdeal Cert.ReferenceIdeal.Val

-- what holds of every buffer the reference never writes holds of its eleven arguments
theorem args_kept {P : Ref sig .tc → Prop} (k : ∀ b, b ∉ wP ∧ b ∉ wL0 ∧ b ∉ wL1 ∧ b ∉ wL2 ∧ b ∉ wH → P b) :
    P main_arg0 ∧ P main_arg1 ∧ P main_arg2 ∧ P main_arg3 ∧ P main_arg4 ∧ P main_arg5 ∧ P main_arg6 ∧ P main_arg7
      ∧ P main_arg8 ∧ P main_arg9 ∧ P main_arg10 :=
  ⟨k _ (by decide), k _ (by decide), k _ (by decide), k _ (by decide), k _ (by decide), k _ (by decide), k _ (by decide),
    k _ (by decide), k _ (by decide), k _ (by decide), k _ (by decide)⟩

theorem frame_ri : Cert.frame_ReferenceIdeal := fun m ρ _ =>
  (θ_run (defs (F := Ideal)) _ _).mono
    (fun r h c => args_kept (P := fun b => r.2.mem ((c.tc : Thread nD τ).loc b) = m ((c.tc : Thread nD τ).loc b))
      fun b hb => (h c b).trans (rarg m c hb))
    (ref_run (F := Ideal) m ρ)

end Reference

theorem preserves : Cert.preserves_Kernel_KernelIdeal := trivial

-- both programs end at the network of the launch arrays, in its two spellings, which agree on finite inputs
theorem algebraic : Cert.algebraic_KernelIdeal_ReferenceIdeal := by
  intro m ρ m' ρ' hpre hagree
  refine ⟨fun c => _, (θ_run (Cert.KernelIdeal.defs (F := Ideal)) _ _).mono
    (fun r h c => ⟨(h c).1.trans (Cert.KernelIdeal.Val.kval m ρ c), (h c).2⟩) (Cert.KernelIdeal.Val.run_val (F := Ideal) m ρ), ?_⟩
  refine (θ_run (Cert.ReferenceIdeal.defs (F := Ideal)) _ _).mono (fun r h c => ⟨?_,
    args_kept (P := fun b => r.2.mem ((c.tc : Thread Cert.ReferenceIdeal.nD Cert.ReferenceIdeal.τ).loc b) = m' ((c.tc : Thread Cert.ReferenceIdeal.nD Cert.ReferenceIdeal.τ).loc b))
      fun b hb => (h c b).trans (Cert.ReferenceIdeal.Val.rarg m' c hb)⟩) (Cert.ReferenceIdeal.Val.ref_run (F := Ideal) m' ρ')
  obtain ⟨h0, h1, h2, h3, h4, h5, h6, h7, h8, h9, h10⟩ := hagree c
  obtain ⟨f0, f1, f2, f3, f4⟩ := Gcn.fin_of_pre m hpre c
  refine ((h c Cert.ReferenceIdeal.main_v194).trans (Cert.ReferenceIdeal.Val.rval m' c)).trans ?_
  rw [h0, h1, h2, h3, h4, h5, h6, h7, h8, h9, h10]
  exact (Gcn.net_eq _ _ _ _ _ _ _ _ _ _ _ _ (fun hh => Gcn.aggOf_fin _ hh) (Gcn.snOf_fin _) f0 f1 f2 f3 f4).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
